-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x1 : Shape := ⟨2, ![800000, 1]⟩
abbrev S96x96 : Shape := ⟨2, ![96, 96]⟩
abbrev S96 : Shape := ⟨1, ![96]⟩
abbrev S96x10 : Shape := ⟨2, ![96, 10]⟩
abbrev S10 : Shape := ⟨1, ![10]⟩
abbrev S2x800000 : Shape := ⟨2, ![2, 800000]⟩
abbrev S50000 : Shape := ⟨1, ![50000]⟩
abbrev S_ : Shape := ⟨0, ![]⟩
abbrev S1x800000 : Shape := ⟨2, ![1, 800000]⟩
abbrev S800000 : Shape := ⟨1, ![800000]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x10 : S_.BroadcastsInDim S96x10 (![] : Fin 0 → Fin S96x10.rank)
  reducesTo_S96x10_S_d0_1 : S96x10.ReducesTo [0, 1] S_
  bcast_S_S10 : S_.BroadcastsInDim S10 (![] : Fin 0 → Fin S10.rank)
  reducesTo_S10_S_d0 : S10.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg10 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_c_19 : IVec S_ 1 := constantI S_ 1 1#1
  let main_v53 : IVec S_ 1 := (fun x v => Host.reduce IntOp.andi x v reducesTo_S800000_S_d0 h_S_) main_v52 main_c_19
  let main_v54 : IVec S_ 1 := andi main_v48 main_v53
  let main_v55 : IVec S1x800000 32 := (extractStridedSlice S1x800000 ![0, 0] · slices_S2x800000_S1x800000_0_0) main_arg10
  let main_v56 : IVec S800000 32 := shapeCast S800000 main_v55 shapeCasts_S1x800000_S800000
  let main_c_20 : IVec S_ 32 := constantI S_ 32 50000#32
  let main_v57 : IVec S800000 32 := broadcastInDim S800000 ![] bcast_S_S800000 main_c_20
  let main_v58 : IVec S800000 1 := cmpi .slt main_v56 main_v57
  let main_c_21 : IVec S_ 1 := constantI S_ 1 1#1
  let main_v59 : IVec S_ 1 := (fun x v => Host.reduce IntOp.andi x v reducesTo_S800000_S_d0 h_S_) main_v58 main_c_21
  let main_v60 : IVec S_ 1 := andi main_v54 main_v59
  main_v60

def fn_part2 {F : FTy → Type} [FloatOps F] (main_arg7 : FVec F S96 .f32) (main_arg8 : FVec F S96x10 .f32) (main_arg9 : FVec F S10 .f32) (main_arg10 : IVec S2x800000 32) (main_v33 : IVec S_ 1) : IVec S_ 1 :=
  let main_v34 : FVec F S96 .f32 := Host.absf main_arg7
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x10 .f32 := Host.absf main_arg8
  let main_cst_14 : FVec F S_ .f32 := constant S_ .f32 0x7F800000#32
  let main_v40 : FVec F S96x10 .f32 := broadcastInDim S96x10 ![] bcast_S_S96x10 main_cst_14
  let main_v41 : IVec S96x10 1 := cmpf .olt main_v39 main_v40
  let main_c_15 : IVec S_ 1 := constantI S_ 1 1#1
  let main_v42 : IVec S_ 1 := (fun x v => Host.reduce IntOp.andi x v reducesTo_S96x10_S_d0_1 h_S_) main_v41 main_c_15
  let main_v43 : IVec S_ 1 := andi main_v38 main_v42
  let main_v44 : FVec F S10 .f32 := Host.absf main_arg9
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : IVec S1x800000 32 := (extractStridedSlice S1x800000 ![0, 0] · slices_S2x800000_S1x800000_0_0) main_arg10
  let main_v50 : IVec S800000 32 := shapeCast S800000 main_v49 shapeCasts_S1x800000_S800000
  let main_c_18 : IVec S_ 32 := constantI S_ 32 0#32
  fn_part3 (F := F) main_arg10 main_v48 main_v50 main_c_18

def fn_part1 {F : FTy → Type} [FloatOps F] (main_arg4 : FVec F S96x96 .f32) (main_arg5 : FVec F S96 .f32) (main_arg6 : FVec F S96x96 .f32) (main_arg7 : FVec F S96 .f32) (main_arg8 : FVec F S96x10 .f32) (main_arg9 : FVec F S10 .f32) (main_arg10 : IVec S2x800000 32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg4
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg6
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x96 .f32) (main_arg1 : FVec F S800000x1 .f32) (main_arg2 : FVec F S96x96 .f32) (main_arg3 : FVec F S96 .f32) (main_arg4 : FVec F S96x96 .f32) (main_arg5 : FVec F S96 .f32) (main_arg6 : FVec F S96x96 .f32) (main_arg7 : FVec F S96 .f32) (main_arg8 : FVec F S96x10 .f32) (main_arg9 : FVec F S10 .f32) (main_arg10 : IVec S2x800000 32) (main_arg11 : IVec S50000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_arg8 main_arg9 main_arg10 main_v13 main_v16
-- ==== Kernel.lean ====
abbrev S50000x96 : Shape := ⟨2, ![50000, 96]⟩
abbrev S800000x1 : Shape := ⟨2, ![800000, 1]⟩
abbrev S96x96 : Shape := ⟨2, ![96, 96]⟩
abbrev S96 : Shape := ⟨1, ![96]⟩
abbrev S96x10 : Shape := ⟨2, ![96, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1968 : Shape := ⟨1, ![1968]⟩
abbrev S851968 : Shape := ⟨1, ![851968]⟩
abbrev S50176x96 : Shape := ⟨2, ![50176, 96]⟩
abbrev S512x96 : Shape := ⟨2, ![512, 96]⟩
abbrev S851968x1 : Shape := ⟨2, ![851968, 1]⟩
abbrev S1 : Shape := ⟨1, ![1]⟩
abbrev S1x1 : Shape := ⟨2, ![1, 1]⟩
abbrev S851968x96 : Shape := ⟨2, ![851968, 96]⟩
abbrev S851968x97 : Shape := ⟨2, ![851968, 97]⟩
abbrev S8192x97 : Shape := ⟨2, ![8192, 97]⟩
abbrev S8192x96 : Shape := ⟨2, ![8192, 96]⟩
abbrev S8192x1 : Shape := ⟨2, ![8192, 1]⟩
abbrev S1x512 : Shape := ⟨2, ![1, 512]⟩
abbrev S8192x512 : Shape := ⟨2, ![8192, 512]⟩
abbrev S1x96 : Shape := ⟨2, ![1, 96]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 194
  | .vmem => 30
  | .smem => 0
  | _ => 0

abbrev hbmTy0_0 (i : Nat) : BufTy := match i % 128 with
  | 0 => ⟨S50000x96, .f32⟩
  | 1 => ⟨S800000x1, .f32⟩
  | 2 => ⟨S96x96, .f32⟩
  | 3 => ⟨S96, .f32⟩
  | 4 => ⟨S96x96, .f32⟩
  | 5 => ⟨S96, .f32⟩
  | 6 => ⟨S96x96, .f32⟩
  | 7 => ⟨S96, .f32⟩
  | 8 => ⟨S96x10, .f32⟩
  | 9 => ⟨S10, .f32⟩
  | 10 => ⟨S2x800000, .i32⟩
  | 11 => ⟨S50000, .i32⟩
  | 12 => ⟨S1x800000, .i32⟩
  | 13 => ⟨S800000, .i32⟩
  | 14 => ⟨S1x800000, .i32⟩
  | 15 => ⟨S800000, .i32⟩
  | 16 => ⟨S800000, .f32⟩
  | 17 => ⟨S50000, .i32⟩
  | 18 => ⟨S850000, .i32⟩
  | 19 => ⟨S850000, .i32⟩
  | 20 => ⟨S_, .f32⟩
  | 21 => ⟨S50000, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S1968, .i32⟩
  | 57 => ⟨S851968, .i32⟩
  | 58 => ⟨S_, .i32⟩
  | 59 => ⟨S1968, .i32⟩
  | 60 => ⟨S851968, .i32⟩
  | 61 => ⟨S_, .f32⟩
  | 62 => ⟨S1968, .f32⟩
  | 63 => ⟨S851968, .f32⟩
  | 64 => ⟨S851968, .f32⟩
  | 65 => ⟨S_, .i32⟩
  | 66 => ⟨S_, .f32⟩
  | 67 => ⟨S50176x96, .f32⟩
  | 68 => ⟨S50176x96, .f32⟩
  | 69 => ⟨S_, .i32⟩
  | 70 => ⟨S851968, .i32⟩
  | 71 => ⟨S851968, .i1⟩
  | 72 => ⟨S_, .i32⟩
  | 73 => ⟨S851968, .i32⟩
  | 74 => ⟨S851968, .i32⟩
  | 75 => ⟨S851968, .i32⟩
  | 76 => ⟨S851968x1, .i32⟩
  | 77 => ⟨S1, .i32⟩
  | 78 => ⟨S_, .i32⟩
  | 79 => ⟨S851968x1, .i32⟩
  | 80 => ⟨S851968x1, .i1⟩
  | 81 => ⟨S1x1, .i32⟩
  | 82 => ⟨S851968x1, .i32⟩
  | 83 => ⟨S851968x1, .i1⟩
  | 84 => ⟨S851968x1, .i1⟩
  | 85 => ⟨S_, .i1⟩
  | 86 => ⟨S851968, .i1⟩
  | 87 => ⟨S851968x96, .f32⟩
  | 88 => ⟨S851968x96, .i1⟩
  | 89 => ⟨S_, .f32⟩
  | 90 => ⟨S851968x96, .f32⟩
  | 91 => ⟨S851968x96, .f32⟩
  | 92 => ⟨S851968x1, .f32⟩
  | 93 => ⟨S851968x96, .f32⟩
  | 94 => ⟨S851968x96, .f32⟩
  | 95 => ⟨S851968x1, .f32⟩
  | 96 => ⟨S851968x97, .f32⟩
  | 97 => ⟨S50176x96, .f32⟩
  | 98 => ⟨S1x96, .f32⟩
  | 99 => ⟨S50176x96, .f32⟩
  | 100 => ⟨S50176x96, .f32⟩
  | 101 => ⟨S_, .f32⟩
  | 102 => ⟨S50176x96, .f32⟩
  | 103 => ⟨S50176x96, .f32⟩
  | 104 => ⟨S50176x96, .f32⟩
  | 105 => ⟨S_, .i32⟩
  | 106 => ⟨S851968, .i32⟩
  | 107 => ⟨S851968, .i1⟩
  | 108 => ⟨S_, .i32⟩
  | 109 => ⟨S851968, .i32⟩
  | 110 => ⟨S851968, .i32⟩
  | 111 => ⟨S851968, .i32⟩
  | 112 => ⟨S851968x1, .i32⟩
  | 113 => ⟨S1, .i32⟩
  | 114 => ⟨S_, .i32⟩
  | 115 => ⟨S851968x1, .i32⟩
  | 116 => ⟨S851968x1, .i1⟩
  | 117 => ⟨S1x1, .i32⟩
  | 118 => ⟨S851968x1, .i32⟩
  | 119 => ⟨S851968x1, .i1⟩
  | 120 => ⟨S851968x1, .i1⟩
  | 121 => ⟨S_, .i1⟩
  | 122 => ⟨S851968, .i1⟩
  | 123 => ⟨S851968x96, .f32⟩
  | 124 => ⟨S851968x96, .i1⟩
  | 125 => ⟨S_, .f32⟩
  | 126 => ⟨S851968x96, .f32⟩
  | 127 => ⟨S851968x96, .f32⟩
  | _ => ⟨S50000x96, .f32⟩

abbrev hbmTy0_1 (i : Nat) : BufTy := match i % 128 with
  | 0 => ⟨S851968x1, .f32⟩
  | 1 => ⟨S851968x96, .f32⟩
  | 2 => ⟨S851968x96, .f32⟩
  | 3 => ⟨S851968x1, .f32⟩
  | 4 => ⟨S851968x97, .f32⟩
  | 5 => ⟨S50176x96, .f32⟩
  | 6 => ⟨S1x96, .f32⟩
  | 7 => ⟨S50176x96, .f32⟩
  | 8 => ⟨S50176x96, .f32⟩
  | 9 => ⟨S_, .f32⟩
  | 10 => ⟨S50176x96, .f32⟩
  | 11 => ⟨S50176x96, .f32⟩
  | 12 => ⟨S50176x96, .f32⟩
  | 13 => ⟨S_, .i32⟩
  | 14 => ⟨S851968, .i32⟩
  | 15 => ⟨S851968, .i1⟩
  | 16 => ⟨S_, .i32⟩
  | 17 => ⟨S851968, .i32⟩
  | 18 => ⟨S851968, .i32⟩
  | 19 => ⟨S851968, .i32⟩
  | 20 => ⟨S851968x1, .i32⟩
  | 21 => ⟨S1, .i32⟩
  | 22 => ⟨S_, .i32⟩
  | 23 => ⟨S851968x1, .i32⟩
  | 24 => ⟨S851968x1, .i1⟩
  | 25 => ⟨S1x1, .i32⟩
  | 26 => ⟨S851968x1, .i32⟩
  | 27 => ⟨S851968x1, .i1⟩
  | 28 => ⟨S851968x1, .i1⟩
  | 29 => ⟨S_, .i1⟩
  | 30 => ⟨S851968, .i1⟩
  | 31 => ⟨S851968x96, .f32⟩
  | 32 => ⟨S851968x96, .i1⟩
  | 33 => ⟨S_, .f32⟩
  | 34 => ⟨S851968x96, .f32⟩
  | 35 => ⟨S851968x96, .f32⟩
  | 36 => ⟨S851968x1, .f32⟩
  | 37 => ⟨S851968x96, .f32⟩
  | 38 => ⟨S851968x96, .f32⟩
  | 39 => ⟨S851968x1, .f32⟩
  | 40 => ⟨S851968x97, .f32⟩
  | 41 => ⟨S50176x96, .f32⟩
  | 42 => ⟨S1x96, .f32⟩
  | 43 => ⟨S50176x96, .f32⟩
  | 44 => ⟨S50176x96, .f32⟩
  | 45 => ⟨S50000x96, .f32⟩
  | 46 => ⟨S_, .f32⟩
  | 47 => ⟨S512x96, .f32⟩
  | 48 => ⟨S50000x1, .i32⟩
  | 49 => ⟨S512x96, .f32⟩
  | 50 => ⟨S_, .f32⟩
  | 51 => ⟨S50000, .f32⟩
  | 52 => ⟨S_, .f32⟩
  | 53 => ⟨S512, .f32⟩
  | 54 => ⟨S50000x1, .i32⟩
  | 55 => ⟨S512, .f32⟩
  | 56 => ⟨S_, .f32⟩
  | 57 => ⟨S512, .f32⟩
  | 58 => ⟨S512, .f32⟩
  | 59 => ⟨S512x1, .f32⟩
  | 60 => ⟨S512x96, .f32⟩
  | 61 => ⟨S512x96, .f32⟩
  | 62 => ⟨S512x10, .f32⟩
  | 63 => ⟨S1x10, .f32⟩
  | 64 => ⟨S512x10, .f32⟩
  | 65 => ⟨S512x10, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S512x96, .f32⟩
  | .local _ .vmem, ⟨1, _⟩ => ⟨S512x96, .f32⟩
  | .local _ .vmem, ⟨2, _⟩ => ⟨S96x96, .f32⟩
  | .local _ .vmem, ⟨3, _⟩ => ⟨S512x96, .f32⟩
  | .local _ .vmem, ⟨4, _⟩ => ⟨S512x96, .f32⟩
  | .local _ .vmem, ⟨5, _⟩ => ⟨S8192x97, .f32⟩
  | .local _ .vmem, ⟨6, _⟩ => ⟨S8192x97, .f32⟩
  | .local _ .vmem, ⟨7, _⟩ => ⟨S512x96, .f32⟩
  | .local _ .vmem, ⟨8, _⟩ => ⟨S512x96, .f32⟩
  | .local _ .vmem, ⟨9, _⟩ => ⟨S512x96, .f32⟩
  | .local _ .vmem, ⟨10, _⟩ => ⟨S512x96, .f32⟩
  | .local _ .vmem, ⟨11, _⟩ => ⟨S512x96, .f32⟩
  | .local _ .vmem, ⟨12, _⟩ => ⟨S96x96, .f32⟩
  | .local _ .vmem, ⟨13, _⟩ => ⟨S512x96, .f32⟩
  | .local _ .vmem, ⟨14, _⟩ => ⟨S512x96, .f32⟩
  | .local _ .vmem, ⟨15, _⟩ => ⟨S8192x97, .f32⟩
  | .local _ .vmem, ⟨16, _⟩ => ⟨S8192x97, .f32⟩
  | .local _ .vmem, ⟨17, _⟩ => ⟨S512x96, .f32⟩
  | .local _ .vmem, ⟨18, _⟩ => ⟨S512x96, .f32⟩
  | .local _ .vmem, ⟨19, _⟩ => ⟨S512x96, .f32⟩
  | .local _ .vmem, ⟨20, _⟩ => ⟨S512x96, .f32⟩
  | .local _ .vmem, ⟨21, _⟩ => ⟨S512x96, .f32⟩
  | .local _ .vmem, ⟨22, _⟩ => ⟨S96x96, .f32⟩
  | .local _ .vmem, ⟨23, _⟩ => ⟨S512x96, .f32⟩
  | .local _ .vmem, ⟨24, _⟩ => ⟨S512x96, .f32⟩
  | .local _ .vmem, ⟨25, _⟩ => ⟨S8192x97, .f32⟩
  | .local _ .vmem, ⟨26, _⟩ => ⟨S8192x97, .f32⟩
  | .local _ .vmem, ⟨27, _⟩ => ⟨S512x96, .f32⟩
  | .local _ .vmem, ⟨28, _⟩ => ⟨S512x96, .f32⟩
  | .local _ .vmem, ⟨29, _⟩ => ⟨S512x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_call1_v0 : Ref sig .tc := ⟨.hbm, 66, rfl⟩
abbrev main_v40 : Ref sig .tc := ⟨.hbm, 67, rfl⟩
abbrev main_v41 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_call3_cst : Ref sig .tc := ⟨.hbm, 101, rfl⟩
abbrev main_call3_v0 : Ref sig .tc := ⟨.hbm, 102, rfl⟩
abbrev main_v52 : Ref sig .tc := ⟨.hbm, 103, rfl⟩
abbrev main_v53 : Ref sig .tc := ⟨.hbm, 104, rfl⟩
abbrev main_call4_c : Ref sig .tc := ⟨.hbm, 105, rfl⟩
abbrev main_call4_v0 : Ref sig .tc := ⟨.hbm, 106, rfl⟩
abbrev main_call4_v1 : Ref sig .tc := ⟨.hbm, 107, rfl⟩
abbrev main_call4_c_0 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_c_1 : Ref sig .tc := ⟨.hbm, 113, rfl⟩
abbrev main_call4_c_2 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_3 : Ref sig .tc := ⟨.hbm, 121, rfl⟩
abbrev main_call4_v12 : Ref sig .tc := ⟨.hbm, 122, rfl⟩
abbrev main_call4_v13 : Ref sig .tc := ⟨.hbm, 123, rfl⟩
abbrev main_call4_v14 : Ref sig .tc := ⟨.hbm, 124, rfl⟩
abbrev main_call4_cst : Ref sig .tc := ⟨.hbm, 125, rfl⟩
abbrev main_call4_v15 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_call5_cst : Ref sig .tc := ⟨.hbm, 137, rfl⟩
abbrev main_call5_v0 : Ref sig .tc := ⟨.hbm, 138, rfl⟩
abbrev main_v64 : Ref sig .tc := ⟨.hbm, 139, rfl⟩
abbrev main_v65 : Ref sig .tc := ⟨.hbm, 140, rfl⟩
abbrev main_call6_c : Ref sig .tc := ⟨.hbm, 141, rfl⟩
abbrev main_call6_v0 : Ref sig .tc := ⟨.hbm, 142, rfl⟩
abbrev main_call6_v1 : Ref sig .tc := ⟨.hbm, 143, rfl⟩
abbrev main_call6_c_0 : Ref sig .tc := ⟨.hbm, 144, rfl⟩
abbrev main_call6_v2 : Ref sig .tc := ⟨.hbm, 145, rfl⟩
abbrev main_call6_v3 : Ref sig .tc := ⟨.hbm, 146, rfl⟩
abbrev main_call6_v4 : Ref sig .tc := ⟨.hbm, 147, rfl⟩
abbrev main_call6_v5 : Ref sig .tc := ⟨.hbm, 148, rfl⟩
abbrev main_call6_c_1 : Ref sig .tc := ⟨.hbm, 149, rfl⟩
abbrev main_call6_c_2 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_v9 : Ref sig .tc := ⟨.hbm, 154, rfl⟩
abbrev main_call6_v10 : Ref sig .tc := ⟨.hbm, 155, rfl⟩
abbrev main_call6_v11 : Ref sig .tc := ⟨.hbm, 156, rfl⟩
abbrev main_call6_c_3 : Ref sig .tc := ⟨.hbm, 157, rfl⟩
abbrev main_call6_v12 : Ref sig .tc := ⟨.hbm, 158, rfl⟩
abbrev main_call6_v13 : Ref sig .tc := ⟨.hbm, 159, rfl⟩
abbrev main_call6_v14 : Ref sig .tc := ⟨.hbm, 160, rfl⟩
abbrev main_call6_cst : Ref sig .tc := ⟨.hbm, 161, rfl⟩
abbrev main_call6_v15 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_cst_10 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_cst_11 : Ref sig .tc := ⟨.hbm, 178, rfl⟩
abbrev main_v80 : Ref sig .tc := ⟨.hbm, 179, rfl⟩
abbrev main_cst_12 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_cst_13 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_scratch0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem1_1 : DmaSem sig := 26

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![98, 104], ![false, false]⟩

def k1_cond2 (i : grid1.Coords) : BitVec 1 :=
  let arg1 : BitVec 32 := BitVec.ofNat 32 (i 1).val
  let c103_i32 : BitVec 32 := 103#32
  let v25 : BitVec 1 := Scalar.cmpi .eq arg1 c103_i32
  let v26 : BitVec 32 := Scalar.extui v25
  let c0_i32_6 : BitVec 32 := 0#32
  let v27 : BitVec 1 := Scalar.cmpi .ne v26 c0_i32_6
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192x97 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![98, 104], ![false, false]⟩

def k3_cond2 (i : grid3.Coords) : BitVec 1 :=
  let arg1 : BitVec 32 := BitVec.ofNat 32 (i 1).val
  let c103_i32 : BitVec 32 := 103#32
  let v25 : BitVec 1 := Scalar.cmpi .eq arg1 c103_i32
  let v26 : BitVec 32 := Scalar.extui v25
  let c0_i32_6 : BitVec 32 := 0#32
  let v27 : BitVec 1 := Scalar.cmpi .ne v26 c0_i32_6
  v27

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S8192x97 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev grid4 : Pipeline.Grid := ⟨1, ![98], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![98, 104], ![false, false]⟩

def k5_cond2 (i : grid5.Coords) : BitVec 1 :=
  let arg1 : BitVec 32 := BitVec.ofNat 32 (i 1).val
  let c103_i32 : BitVec 32 := 103#32
  let v25 : BitVec 1 := Scalar.cmpi .eq arg1 c103_i32
  let v26 : BitVec 32 := Scalar.extui v25
  let c0_i32_6 : BitVec 32 := 0#32
  let v27 : BitVec 1 := Scalar.cmpi .ne v26 c0_i32_6
  v27

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S8192x97 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S512x96 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000x1_S800000 : S800000x1.ShapeCasts S800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S_S1968 : S_.BroadcastsInDim S1968 (![] : Fin 0 → Fin S1968.rank)
  concatenates_S850000_S1968_S851968_d0 : Shape.Concatenates [S850000, S1968] S851968 0
  pads_S50000x96_S50176x96_01760_000 : S50000x96.Pads (![0, 0] : Fin 2 → Nat) ![176, 0] ![0, 0] S50176x96
  h_S_ : 0 < S_.numel
  inb_S512x96_S512x96_0_0 : ∀ a, (![0, 0] : Fin 2 → Nat) a + S512x96.size a ≤ S512x96.size a
  h_S512x96 : 0 < S512x96.numel
  shapeCasts_S512x96_S512x96 : S512x96.ShapeCasts S512x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S_S851968 : S_.BroadcastsInDim S851968 (![] : Fin 0 → Fin S851968.rank)
  bcast_S851968_S851968x1_0 : S851968.BroadcastsInDim S851968x1 (![0] : Fin 1 → Fin S851968x1.rank)
  bcast_S_S851968x1 : S_.BroadcastsInDim S851968x1 (![] : Fin 0 → Fin S851968x1.rank)
  bcast_S1_S1x1_1 : S1.BroadcastsInDim S1x1 (![1] : Fin 1 → Fin S1x1.rank)
  bcast_S1x1_S851968x1_0_1 : S1x1.BroadcastsInDim S851968x1 (![0, 1] : Fin 2 → Fin S851968x1.rank)
  reducesTo_S851968x1_S851968_d1 : S851968x1.ReducesTo [1] S851968
  bcast_S851968_S851968x96_0 : S851968.BroadcastsInDim S851968x96 (![0] : Fin 1 → Fin S851968x96.rank)
  bcast_S_S851968x96 : S_.BroadcastsInDim S851968x96 (![] : Fin 0 → Fin S851968x96.rank)
  bcast_S851968x1_S851968x96_0_1 : S851968x1.BroadcastsInDim S851968x96 (![0, 1] : Fin 2 → Fin S851968x96.rank)
  concatenates_S851968x96_S851968x1_S851968x97_d1 : Shape.Concatenates [S851968x96, S851968x1] S851968x97 1
  inb_S8192x97_S8192x97_0_0 : ∀ a, (![0, 0] : Fin 2 → Nat) a + S8192x97.size a ≤ S8192x97.size a
  h_S8192x97 : 0 < S8192x97.numel
  shapeCasts_S8192x97_S8192x97 : S8192x97.ShapeCasts S8192x97
  slices_S8192x97_o0_0_S8192x96 : S8192x97.Slices ![0, 0] S8192x96
  slices_S8192x97_o0_96_S8192x1 : S8192x97.Slices ![0, 96] S8192x1
  iota_S1x512_d1_w32 : S1x512.Iotas .tc 32 [1]
  broadcasts_S8192x1_S8192x512 : S8192x1.Broadcasts S8192x512
  broadcasts_S1x512_S8192x512 : S1x512.Broadcasts S8192x512
  natLt_1_32 : 1 < 32
  bcast_S96_S1x96_1 : S96.BroadcastsInDim S1x96 (![1] : Fin 1 → Fin S1x96.rank)
  bcast_S1x96_S50176x96_0_1 : S1x96.BroadcastsInDim S50176x96 (![0, 1] : Fin 2 → Fin S50176x96.rank)
  bcast_S_S50176x96 : S_.BroadcastsInDim S50176x96 (![] : Fin 0 → Fin S50176x96.rank)
  slices_S50176x96_S50000x96_0_0 : S50176x96.Slices ![0, 0] S50000x96
  bcast_S_S512x96 : S_.BroadcastsInDim S512x96 (![] : Fin 0 → Fin S512x96.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x96_0_1 : S512x1.BroadcastsInDim S512x96 (![0, 1] : Fin 2 → Fin S512x96.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S512x96_S96x96_S512x96_1_0_0_1_n_n_wf : DotDims.WF S512x96 S96x96 S512x96 [1] [0] [0] [1] [] []
  gather_S50176x96_S851968x1_S851968x96_1_0_n_n_0_1_196_wf : GatherDims.WF S50176x96 S851968x1 S851968x96 [1] [0] [] [0] [] 1 ![1, 96]
  dot_S8192x512_S8192x96_S512x96_0_0_1_1_n_n_wf : DotDims.WF S8192x512 S8192x96 S512x96 [0] [0] [1] [1] [] []
  scatter_S512x96_S50000x1_S50000x96_1_0_0_1_wf : ScatterDims.WF S512x96 S50000x1 S50000x96 [1] [0] [0] 1
  scatter_S512_S50000x1_S50000_n_0_0_1_wf : ScatterDims.WF S512 S50000x1 S50000 [] [0] [0] 1
  dot_S512x96_S96x10_S512x10_1_0_0_1_n_n_wf : DotDims.WF S512x96 S96x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x96.size a ≤ S50176x96.size a
  hwx0_0 : ∀ i : grid0.Coords, EltTy.bits .f32 = 32 ∨ (Rect.block (s := S50176x96) S512x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x96.size a ≤ S50176x96.size a
  hwx0_2 : ∀ i : grid0.Coords, EltTy.bits .f32 = 32 ∨ (Rect.block (s := S50176x96) S512x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x97.size a ≤ S851968x97.size a
  hwx1_0 : ∀ i : grid1.Coords, EltTy.bits .f32 = 32 ∨ (Rect.block (s := S851968x97) S8192x97.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x96.size a ≤ S50176x96.size a
  hwx1_1 : ∀ i : grid1.Coords, EltTy.bits .f32 = 32 ∨ (Rect.block (s := S50176x96) S512x96.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x96.size a ≤ S50176x96.size a
  hwx2_0 : ∀ i : grid2.Coords, EltTy.bits .f32 = 32 ∨ (Rect.block (s := S50176x96) S512x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x96.size a ≤ S50176x96.size a
  hwx2_2 : ∀ i : grid2.Coords, EltTy.bits .f32 = 32 ∨ (Rect.block (s := S50176x96) S512x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x97.size a ≤ S851968x97.size a
  hwx3_0 : ∀ i : grid3.Coords, EltTy.bits .f32 = 32 ∨ (Rect.block (s := S851968x97) S8192x97.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x96.size a ≤ S50176x96.size a
  hwx3_1 : ∀ i : grid3.Coords, EltTy.bits .f32 = 32 ∨ (Rect.block (s := S50176x96) S512x96.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x96.size a ≤ S50176x96.size a
  hwx4_0 : ∀ i : grid4.Coords, EltTy.bits .f32 = 32 ∨ (Rect.block (s := S50176x96) S512x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x96.size a ≤ S96x96.size a
  hwx4_1 : ∀ i : grid4.Coords, EltTy.bits .f32 = 32 ∨ (Rect.block (s := S96x96) S96x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x96.size a ≤ S50176x96.size a
  hwx4_2 : ∀ i : grid4.Coords, EltTy.bits .f32 = 32 ∨ (Rect.block (s := S50176x96) S512x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x97.size a ≤ S851968x97.size a
  hwx5_0 : ∀ i : grid5.Coords, EltTy.bits .f32 = 32 ∨ (Rect.block (s := S851968x97) S8192x97.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x96.size a ≤ S50176x96.size a
  hwx5_1 : ∀ i : grid5.Coords, EltTy.bits .f32 = 32 ∨ (Rect.block (s := S50176x96) S512x96.size (cc5_transform_1 i) (hinb5_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S512x96_S96x96_S512x96_1_0_0_1_n_n : DotDims S512x96 S96x96 S512x96 where
  lhsContracting := [1]
  rhsContracting := [0]
  lhsNonContracting := [0]
  rhsNonContracting := [1]
  lhsBatch := []
  rhsBatch := []
  wf := dot_S512x96_S96x96_S512x96_1_0_0_1_n_n_wf
def gather_S50176x96_S851968x1_S851968x96_1_0_n_n_0_1_196 : GatherDims S50176x96 S851968x1 S851968x96 where
  offsetDims := [1]
  collapsedSliceDims := [0]
  operandBatchingDims := []
  startIndicesBatchingDims := []
  startIndexMap := [0]
  indexVectorDim := 1
  sliceSizes := ![1, 96]
  wf := gather_S50176x96_S851968x1_S851968x96_1_0_n_n_0_1_196_wf
def dot_S8192x512_S8192x96_S512x96_0_0_1_1_n_n : DotDims S8192x512 S8192x96 S512x96 where
  lhsContracting := [0]
  rhsContracting := [0]
  lhsNonContracting := [1]
  rhsNonContracting := [1]
  lhsBatch := []
  rhsBatch := []
  wf := dot_S8192x512_S8192x96_S512x96_0_0_1_1_n_n_wf
def scatter_S512x96_S50000x1_S50000x96_1_0_0_1 : ScatterDims S512x96 S50000x1 S50000x96 where
  updateWindowDims := [1]
  insertedWindowDims := [0]
  scatterDimsToOperandDims := [0]
  indexVectorDim := 1
  wf := scatter_S512x96_S50000x1_S50000x96_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x96_S96x10_S512x10_1_0_0_1_n_n : DotDims S512x96 S96x10 S512x10 where
  lhsContracting := [1]
  rhsContracting := [0]
  lhsNonContracting := [0]
  rhsNonContracting := [1]
  lhsBatch := []
  rhsBatch := []
  wf := dot_S512x96_S96x10_S512x10_1_0_0_1_n_n_wf

abbrev win0_0 : Pipeline.Window sig grid0 :=
  Pipeline.Window.ofSpec (Memref.whole main_v40) S512x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S512x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S8192x97.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S512x96.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v52) S512x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S512x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S8192x97.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S512x96.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

abbrev win4_0 : Pipeline.Window sig grid4 :=
  Pipeline.Window.ofSpec (Memref.whole main_v64) S512x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S96x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S512x96.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S8192x97.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S512x96.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev idle5 : Fin 2 → grid5.Coords → Bool := fun | 0 => fun _ => false | 1 => fun i => !(k5_cond2 i == 1#1) | ⟨_ + 2, h⟩ => absurd h (Nat.not_lt.2 (Nat.le_add_left _ _))

class Facts : Prop extends Facts₀ where

variable [Facts]
-- ==== ReferenceIdeal.lean ====
abbrev S50000x96 : Shape := ⟨2, ![50000, 96]⟩
abbrev S800000x1 : Shape := ⟨2, ![800000, 1]⟩
abbrev S96x96 : Shape := ⟨2, ![96, 96]⟩
abbrev S96 : Shape := ⟨1, ![96]⟩
abbrev S96x10 : Shape := ⟨2, ![96, 10]⟩
abbrev S10 : Shape := ⟨1, ![10]⟩
abbrev S2x800000 : Shape := ⟨2, ![2, 800000]⟩
abbrev S50000 : Shape := ⟨1, ![50000]⟩
abbrev S800000 : Shape := ⟨1, ![800000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S512x96 : Shape := ⟨2, ![512, 96]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 217
  | .vmem => 0
  | .smem => 0
  | _ => 0

abbrev hbmTy0_0 (i : Nat) : BufTy := match i % 128 with
  | 0 => ⟨S50000x96, .f32⟩
  | 1 => ⟨S800000x1, .f32⟩
  | 2 => ⟨S96x96, .f32⟩
  | 3 => ⟨S96, .f32⟩
  | 4 => ⟨S96x96, .f32⟩
  | 5 => ⟨S96, .f32⟩
  | 6 => ⟨S96x96, .f32⟩
  | 7 => ⟨S96, .f32⟩
  | 8 => ⟨S96x10, .f32⟩
  | 9 => ⟨S10, .f32⟩
  | 10 => ⟨S2x800000, .i32⟩
  | 11 => ⟨S50000, .i32⟩
  | 12 => ⟨S800000, .f32⟩
  | 13 => ⟨S1x800000, .i32⟩
  | 14 => ⟨S800000, .i32⟩
  | 15 => ⟨S1x800000, .i32⟩
  | 16 => ⟨S800000, .i32⟩
  | 17 => ⟨S50000x96, .f32⟩
  | 18 => ⟨S50000, .i32⟩
  | 19 => ⟨S850000, .i32⟩
  | 20 => ⟨S850000, .i32⟩
  | 21 => ⟨S_, .f32⟩
  | 22 => ⟨S50000, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x96, .f32⟩
  | 66 => ⟨S850000x96, .f32⟩
  | 67 => ⟨S850000x96, .f32⟩
  | 68 => ⟨S_, .f32⟩
  | 69 => ⟨S50000x96, .f32⟩
  | 70 => ⟨S850000x1, .i32⟩
  | 71 => ⟨S50000x96, .f32⟩
  | 72 => ⟨S1x96, .f32⟩
  | 73 => ⟨S50000x96, .f32⟩
  | 74 => ⟨S50000x96, .f32⟩
  | 75 => ⟨S_, .f32⟩
  | 76 => ⟨S50000x96, .f32⟩
  | 77 => ⟨S50000x96, .f32⟩
  | 78 => ⟨S50000x96, .f32⟩
  | 79 => ⟨S50000, .i32⟩
  | 80 => ⟨S850000, .i32⟩
  | 81 => ⟨S850000, .i32⟩
  | 82 => ⟨S_, .f32⟩
  | 83 => ⟨S50000, .f32⟩
  | 84 => ⟨S850000, .f32⟩
  | 85 => ⟨S_, .f32⟩
  | 86 => ⟨S50000, .f32⟩
  | 87 => ⟨S850000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S_, .f32⟩
  | 95 => ⟨S50000, .f32⟩
  | 96 => ⟨S50000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S850000, .f32⟩
  | 117 => ⟨S850000x1, .f32⟩
  | 118 => ⟨S_, .i32⟩
  | 119 => ⟨S850000, .i32⟩
  | 120 => ⟨S850000, .i1⟩
  | 121 => ⟨S_, .i32⟩
  | 122 => ⟨S850000, .i32⟩
  | 123 => ⟨S850000, .i32⟩
  | 124 => ⟨S850000, .i32⟩
  | 125 => ⟨S850000x1, .i32⟩
  | 126 => ⟨S850000x96, .f32⟩
  | 127 => ⟨S850000x96, .f32⟩
  | _ => ⟨S50000x96, .f32⟩

abbrev hbmTy0_1 (i : Nat) : BufTy := match i % 128 with
  | 0 => ⟨S850000x96, .f32⟩
  | 1 => ⟨S_, .f32⟩
  | 2 => ⟨S50000x96, .f32⟩
  | 3 => ⟨S850000x1, .i32⟩
  | 4 => ⟨S50000x96, .f32⟩
  | 5 => ⟨S1x96, .f32⟩
  | 6 => ⟨S50000x96, .f32⟩
  | 7 => ⟨S50000x96, .f32⟩
  | 8 => ⟨S_, .f32⟩
  | 9 => ⟨S50000x96, .f32⟩
  | 10 => ⟨S50000x96, .f32⟩
  | 11 => ⟨S50000x96, .f32⟩
  | 12 => ⟨S50000, .i32⟩
  | 13 => ⟨S850000, .i32⟩
  | 14 => ⟨S850000, .i32⟩
  | 15 => ⟨S_, .f32⟩
  | 16 => ⟨S50000, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S850000x1, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x96, .f32⟩
  | 60 => ⟨S850000x96, .f32⟩
  | 61 => ⟨S850000x96, .f32⟩
  | 62 => ⟨S_, .f32⟩
  | 63 => ⟨S50000x96, .f32⟩
  | 64 => ⟨S850000x1, .i32⟩
  | 65 => ⟨S50000x96, .f32⟩
  | 66 => ⟨S1x96, .f32⟩
  | 67 => ⟨S50000x96, .f32⟩
  | 68 => ⟨S50000x96, .f32⟩
  | 69 => ⟨S_, .f32⟩
  | 70 => ⟨S512x96, .f32⟩
  | 71 => ⟨S50000x1, .i32⟩
  | 72 => ⟨S512x96, .f32⟩
  | 73 => ⟨S_, .f32⟩
  | 74 => ⟨S50000, .f32⟩
  | 75 => ⟨S_, .f32⟩
  | 76 => ⟨S512, .f32⟩
  | 77 => ⟨S50000x1, .i32⟩
  | 78 => ⟨S512, .f32⟩
  | 79 => ⟨S_, .f32⟩
  | 80 => ⟨S512, .f32⟩
  | 81 => ⟨S512, .f32⟩
  | 82 => ⟨S512x1, .f32⟩
  | 83 => ⟨S512x96, .f32⟩
  | 84 => ⟨S512x96, .f32⟩
  | 85 => ⟨S512x10, .f32⟩
  | 86 => ⟨S1x10, .f32⟩
  | 87 => ⟨S512x10, .f32⟩
  | 88 => ⟨S512x10, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_17 : Ref sig .tc := ⟨.hbm, 118, rfl⟩
abbrev main_v81 : Ref sig .tc := ⟨.hbm, 119, rfl⟩
abbrev main_v82 : Ref sig .tc := ⟨.hbm, 120, rfl⟩
abbrev main_c_18 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call3_cst : Ref sig .tc := ⟨.hbm, 136, rfl⟩
abbrev main_call3_v0 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_20 : Ref sig .tc := ⟨.hbm, 143, rfl⟩
abbrev main_v101 : Ref sig .tc := ⟨.hbm, 144, rfl⟩
abbrev main_v102 : Ref sig .tc := ⟨.hbm, 145, rfl⟩
abbrev main_cst_21 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_22 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_23 : Ref sig .tc := ⟨.hbm, 154, rfl⟩
abbrev main_call4_v0 : Ref sig .tc := ⟨.hbm, 155, rfl⟩
abbrev main_call4_v1 : Ref sig .tc := ⟨.hbm, 156, rfl⟩
abbrev main_v109 : Ref sig .tc := ⟨.hbm, 157, rfl⟩
abbrev main_c_24 : Ref sig .tc := ⟨.hbm, 158, rfl⟩
abbrev main_v110 : Ref sig .tc := ⟨.hbm, 159, rfl⟩
abbrev main_v111 : Ref sig .tc := ⟨.hbm, 160, rfl⟩
abbrev main_c_25 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_26 : Ref sig .tc := ⟨.hbm, 168, rfl⟩
abbrev main_v118 : Ref sig .tc := ⟨.hbm, 169, rfl⟩
abbrev main_v119 : Ref sig .tc := ⟨.hbm, 170, rfl⟩
abbrev main_c_27 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_c_28 : Ref sig .tc := ⟨.hbm, 179, rfl⟩
abbrev main_v127 : Ref sig .tc := ⟨.hbm, 180, rfl⟩
abbrev main_v128 : Ref sig .tc := ⟨.hbm, 181, rfl⟩
abbrev main_c_29 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_30 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_cst_31 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_32 : Ref sig .tc := ⟨.hbm, 201, rfl⟩
abbrev main_v145 : Ref sig .tc := ⟨.hbm, 202, rfl⟩
abbrev main_cst_33 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_34 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩

abbrev nD : Nat := 1
abbrev τ : Topo := Topo.v7x

variable {F : FTy → Type} [FloatOps F]

class Facts₀ : Prop where
  shapeCasts_S800000x1_S800000 : S800000x1.ShapeCasts S800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S512x96 : S_.BroadcastsInDim S512x96 (![] : Fin 0 → Fin S512x96.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x96_0_1 : S512x1.BroadcastsInDim S512x96 (![0, 1] : Fin 2 → Fin S512x96.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S50000x96_S96x96_S50000x96_1_0_0_1_n_n_wf : DotDims.WF S50000x96 S96x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  scatter_S512x96_S50000x1_S50000x96_1_0_0_1_wf : ScatterDims.WF S512x96 S50000x1 S50000x96 [1] [0] [0] 1
  scatter_S512_S50000x1_S50000_n_0_0_1_wf : ScatterDims.WF S512 S50000x1 S50000 [] [0] [0] 1
  dot_S512x96_S96x10_S512x10_1_0_0_1_n_n_wf : DotDims.WF S512x96 S96x10 S512x10 [1] [0] [0] [1] [] []

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def scatter_S512x96_S50000x1_S50000x96_1_0_0_1 : ScatterDims S512x96 S50000x1 S50000x96 where
  updateWindowDims := [1]
  insertedWindowDims := [0]
  scatterDimsToOperandDims := [0]
  indexVectorDim := 1
  wf := scatter_S512x96_S50000x1_S50000x96_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x96_S96x10_S512x10_1_0_0_1_n_n : DotDims S512x96 S96x10 S512x10 where
  lhsContracting := [1]
  rhsContracting := [0]
  lhsNonContracting := [0]
  rhsNonContracting := [1]
  lhsBatch := []
  rhsBatch := []
  wf := dot_S512x96_S96x10_S512x10_1_0_0_1_n_n_wf

class Facts : Prop extends Facts₀ where

variable [Facts]
-- ==== Proof.K.Mm0.lean ====
import proofs.«425610_j63256278335719_1_alg».proof.Proof.Gen.Kernel.Launch
import proofs.«425610_j63256278335719_1_alg».proof.Proof.Gen.Kernel.Skeleton
import proofs.«425610_j63256278335719_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x96 := Rect.unit (s := S512x96) ![0, 0] S512x96.size inb_S512x96_S512x96_0_0
abbrev r0_1 : Rect S96x96 := Rect.unit (s := S96x96) ![0, 0] S96x96.size inb_S96x96_S96x96_0_0
abbrev r0_2 : Rect S512x96 := Rect.unit (s := S512x96) ![0, 0] S512x96.size inb_S512x96_S512x96_0_0

noncomputable def out0_2 (x0 : Vec F S512x96 .f32) (x1 : Vec F S96x96 .f32) : Vec F S512x96 .f32 :=
  View.canon [⟨r0_2, k0_pay1 (View.ld x0 r0_0) (View.ld x1 r0_1)⟩]

theorem cover0_2 (p0 : Vec F S512x96 .f32) (y : S512x96.Idx) :
    ∃ pc ∈ ([⟨r0_2, p0⟩] : List (View.Piece (Elt F) S512x96 .f32)), y ∈ pc.1.set :=
  View.cover_of_tiled [⟨r0_2, p0⟩] S512x96.size (by rfl) y

set_option maxHeartbeats 1000000 in

theorem sound_kernel0 (c : Dev nD) (E : Set ℕ) (i : grid0.Coords) (arg1 : Memref sig .tc .vmem S512x96 .f32) (harg1 : arg1.IsWhole) (arg2 : Memref sig .tc .vmem S96x96 .f32) (harg2 : arg2.IsWhole) (arg3 : Memref sig .tc .vmem S512x96 .f32) (harg3 : arg3.IsWhole)
    (x0 : Vec F S512x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.AggRuns.lean ====
import proofs.«425610_j63256278335719_1_alg».proof.Proof.Gen.Kernel.Launch
import proofs.«425610_j63256278335719_1_alg».proof.Proof.Gen.Kernel.Skeleton
import proofs.«425610_j63256278335719_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 104 = 0 :=
  (by decide +kernel : ∀ t : Fin grid1.N, cond1_0 (grid1.coords t) ↔ t.val % 104 = 0)

abbrev cond1_1 (i : grid1.Coords) : Prop := k1_cond2 i = 1#1

theorem hcond1_1 : ∀ t : Fin cfg1.N, cond1_1 (grid1.coords t) ↔ t.val % 104 = 103 :=
  (by decide +kernel : ∀ t : Fin grid1.N, cond1_1 (grid1.coords t) ↔ t.val % 104 = 103)

section
variable (c : Dev nD) (i : grid1.Coords) (arg2 : Memref sig .tc .vmem S8192x97 .f32) (harg2 : arg2.IsWhole) (arg3 : Memref sig .tc .vmem S512x96 .f32) (harg3 : arg3.IsWhole) (arg4 : Memref sig .tc .vmem S512x96 .f32) (harg4 : arg4.IsWhole)

set_option maxHeartbeats 1000000 in

noncomputable def kernelRun1_A (hc0 : cond1_0 i) (hc1 : ¬cond1_1 i)
    (x0 : Vec F S8192x97 .f32) :
    Σ' (L1 : List (View.Piece (Elt F) S512x96 .f32)), { LS0 : List (View.Piece (Elt F) S512x96 .f32) //
      ∀ (xi1 : Vec F S512x96 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1_agg_kernel i arg2 harg2 arg3 harg3 arg4 harg4) K } := by
  refine ⟨[], ?_, fun xi1 E K => ?run⟩
  case run =>
    simp only [cc1_agg_kernel_eq_skeleton]; unfold cc1_agg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in

noncomputable def kernelRun1_B (hc0 : ¬cond1_0 i) (hc1 : ¬cond1_1 i)
    (x0 : Vec F S8192x97 .f32) (xs0 : Vec F S512x96 .f32) :
    Σ' (L1 : List (View.Piece (Elt F) S512x96 .f32)), { LS0 : List (View.Piece (Elt F) S512x96 .f32) //
      ∀ (xi1 : Vec F S512x96 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1_agg_kernel i arg2 harg2 arg3 harg3 arg4 harg4) K } := by
  refine ⟨[], ?_, fun xi1 E K => ?run⟩
  case run =>
    simp only [cc1_agg_kernel_eq_skeleton]; unfold cc1_agg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in

noncomputable def kernelRun1_C (hc0 : ¬cond1_0 i) (hc1 : cond1_1 i)
    (x0 : Vec F S8192x97 .f32) (xs0 : Vec F S512x96 .f32) :
    Σ' (L1 : List (View.Piece (Elt F) S512x96 .f32)), { LS0 : List (View.Piece (Elt F) S512x96 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1_agg_kernel i arg2 harg2 arg3 harg3 arg4 harg4) K } := by
  refine ⟨?_, ?_, fun E K => ?run⟩
  case run =>
    simp only [cc1_agg_kernel_eq_skeleton]; unfold cc1_agg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end

end Cert.Kernel.Hand

end
-- ==== Proof.K.AggAcc.lean ====
import proofs.«425610_j63256278335719_1_alg».proof.Proof.K.AggRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What differs between the three accumulator regions: the memrefs of each point and the scratch; grid, kernel and conditions are shared. -/
structure AccRegion where
  VO : View sig .tc .vmem S512x96 .f32
  VS : View sig .tc .vmem S512x96 .f32
  ms0 : Fin cfg1.N → Memref sig .tc .vmem S8192x97 .f32
  hs0 : ∀ t, (ms0 t).IsWhole
  ms1 : Fin cfg1.N → Memref sig .tc .vmem S512x96 .f32
  hs1 : ∀ t, (ms1 t).IsWhole
  sc : Memref sig .tc .vmem S512x96 .f32
  hsc : sc.IsWhole

variable (R : AccRegion) (c : Dev nD) (t : Fin cfg1.N)

/-- The body's run at point t of the region, in the first, an inner, and the last point of a run of 104. -/
abbrev runA (h0 : t.val % 104 = 0) (h1 : ¬t.val % 104 = 103) :=
  kernelRun1_A (F := F) c (grid1.coords t) (R.ms0 t) (R.hs0 t) (R.ms1 t) (R.hs1 t) R.sc R.hsc ((hcond1_0 t).mpr h0) (fun h => h1 ((hcond1_1 t).mp h))
abbrev runB (h0 : ¬t.val % 104 = 0) (h1 : ¬t.val % 104 = 103) :=
  kernelRun1_B (F := F) c (grid1.coords t) (R.ms0 t) (R.hs0 t) (R.ms1 t) (R.hs1 t) R.sc R.hsc (fun h => h0 ((hcond1_0 t).mp h)) (fun h => h1 ((hcond1_1 t).mp h))
abbrev runC (h0 : ¬t.val % 104 = 0) (h1 : t.val % 104 = 103) :=
  kernelRun1_C (F := F) c (grid1.coords t) (R.ms0 t) (R.hs0 t) (R.ms1 t) (R.hs1 t) R.sc R.hsc (fun h => h0 ((hcond1_0 t).mp h)) ((hcond1_1 t).mpr h1)

/-- Each case's pieces for the scratch tile it; so do the last case's for the output block. -/
theorem scoverA (h0 : t.val % 104 = 0) (h1 : ¬t.val % 104 = 103) (x0 : Vec F S8192x97 .f32) (y : S512x96.Idx) :
    ∃ pc ∈ (runA R c t h0 h1 x0).2.1, y ∈ pc.1.set :=
  View.cover_of_tiledL _ S512x96.size (by sl_kernel_rfl) y
theorem scoverB (h0 : ¬t.val % 104 = 0) (h1 : ¬t.val % 104 = 103) (x0 : Vec F S8192x97 .f32) (xs0 : Vec F S512x96 .f32) (y : S512x96.Idx) :
    ∃ pc ∈ (runB R c t h0 h1 x0 xs0).2.1, y ∈ pc.1.set :=
  View.cover_of_tiledL _ S512x96.size (by sl_kernel_rfl) y
theorem scoverC (h0 : ¬t.val % 104 = 0) (h1 : t.val % 104 = 103) (x0 : Vec F S8192x97 .f32) (xs0 : Vec F S512x96 .f32) (y : S512x96.Idx) :
    ∃ pc ∈ (runC R c t h0 h1 x0 xs0).2.1, y ∈ pc.1.set :=
  View.cover_of_tiledL _ S512x96.size (by sl_kernel_rfl) y
theorem coverC (h0 : ¬t.val % 104 = 0) (h1 : t.val % 104 = 103) (x0 : Vec F S8192x97 .f32) (xs0 : Vec F S512x96 .f32) (y : S512x96.Idx) :
    ∃ pc ∈ (runC R c t h0 h1 x0 xs0).1, y ∈ pc.1.set :=
  View.cover_of_tiledL _ S512x96.size (by sl_kernel_rfl) y

/-- Pieces read back through a view over its junk. -/
abbrev back (v : View sig .tc .vmem S512x96 .f32) (L : List (View.Piece (Elt F) S512x96 .f32)) : Vec F S512x96 .f32 :=
  v.read (Elt F) (v.writes (Elt F) v.junk L)

/-- What a case leaves: the output block (a placeholder where the case stores none), then the scratch. -/
noncomputable def outsA (h0 : t.val % 104 = 0) (h1 : ¬t.val % 104 = 103) (x0 : Vec F S8192x97 .f32) : Vec F S512x96 .f32 × Vec F S512x96 .f32 :=
  (back R.VO (runA R c t h0 h1 x0).1, back R.VS (runA R c t h0 h1 x0).2.1)
noncomputable def outsB (h0 : ¬t.val % 104 = 0) (h1 : ¬t.val % 104 = 103) (x0 : Vec F S8192x97 .f32) (xs0 : Vec F S512x96 .f32) : Vec F S512x96 .f32 × Vec F S512x96 .f32 :=
  (back R.VO (runB R c t h0 h1 x0 xs0).1, back R.VS (runB R c t h0 h1 x0 xs0).2.1)
noncomputable def outsC (h0 : ¬t.val % 104 = 0) (h1 : t.val % 104 = 103) (x0 : Vec F S8192x97 .f32) (xs0 : Vec F S512x96 .f32) : Vec F S512x96 .f32 × Vec F S512x96 .f32 :=
  (back R.VO (runC R c t h0 h1 x0 xs0).1, back R.VS (runC R c t h0 h1 x0 xs0).2.1)

/-- The output buffer and the scratch after position n: each point adds its product to what the point before left, a run's first point to zero. -/
noncomputable def outsAt (blk : Fin cfg1.N → Vec F S8192x97 .f32) : (n : ℕ) → n < cfg1.N → Vec F S512x96 .f32 × Vec F S512x96 .f32
  | 0, hn => outsA R c ⟨0, hn⟩ (Nat.zero_mod _) (show ¬0 % 104 = 103 by decide) (blk ⟨0, hn⟩)
  | n + 1, hn =>
    if h1 : (n + 1) % 104 = 103 then
      outsC R c ⟨n + 1, hn⟩ (show ¬(n + 1) % 104 = 0 by omega) h1 (blk ⟨n + 1, hn⟩) (outsAt blk n (Nat.lt_of_succ_lt hn)).2
    else if h0 : (n + 1) % 104 = 0 then outsA R c ⟨n + 1, hn⟩ h0 h1 (blk ⟨n + 1, hn⟩)
    else outsB R c ⟨n + 1, hn⟩ h0 h1 (blk ⟨n + 1, hn⟩) (outsAt blk n (Nat.lt_of_succ_lt hn)).2

variable (blk : Fin cfg1.N → Vec F S8192x97 .f32)

theorem outsAt_A (h0 : t.val % 104 = 0) (h1 : ¬t.val % 104 = 103) :
    outsAt R c blk t.val t.isLt = outsA R c t h0 h1 (blk t) := by
  obtain ⟨n, hn⟩ := t
  cases n with
  | zero => rfl
  | succ n => exact (dif_neg h1).trans (dif_pos h0)

theorem outsAt_B (h0 : ¬t.val % 104 = 0) (h1 : ¬t.val % 104 = 103) :
    outsAt R c blk t.val t.isLt = outsB R c t h0 h1 (blk t) (outsAt R c blk (t.val - 1) (Nat.lt_of_le_of_lt (Nat.sub_le _ _) t.isLt)).2 := by
  obtain ⟨n, hn⟩ := t
  cases n with
  | zero => exact absurd (Nat.zero_mod _) h0
  | succ n => exact (dif_neg h1).trans (dif_neg h0)

theorem outsAt_C (h0 : ¬t.val % 104 = 0) (h1 : t.val % 104 = 103) :
    outsAt R c blk t.val t.isLt = outsC R c t h0 h1 (blk t) (outsAt R c blk (t.val - 1) (Nat.lt_of_le_of_lt (Nat.sub_le _ _) t.isLt)).2 := by
  obtain ⟨n, hn⟩ := t
  cases n with
  | zero => exact absurd (Nat.zero_mod _) h0
  | succ n => exact dif_pos h1

end Cert.Kernel.Hand

end
-- ==== Proof.K.Agg1.lean ====
import proofs.«425610_j63256278335719_1_alg».proof.Proof.K.AggAcc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem liveAt1_0 : ∀ t : Fin cfg1.N, cfg1.idle 0 (grid1.coords t) = false := fun _ => rfl

theorem idle1_1_iff (i : grid1.Coords) : cfg1.idle 1 i = true ↔ ¬cond1_1 i := by
  have h : cfg1.idle 1 i = !(k1_cond2 i == 1#1) := rfl
  rw [h, Bool.not_eq_true', beq_eq_false_iff_ne]

theorem idleAt1_1 (t : Fin cfg1.N) (h1 : ¬cond1_1 (grid1.coords t)) : cfg1.idle 1 (grid1.coords t) = true :=
  (idle1_1_iff _).mpr h1

theorem noFlush1_1 (t : Fin cfg1.N) (h1 : ¬cond1_1 (grid1.coords t)) : (cfg1.win 1).flush t = false :=
  Bool.eq_false_iff.mpr fun hf => h1 ((hcond1_1 t).mpr ((flush1_1 t).mp hf))

theorem liveAt1_1 (t : Fin cfg1.N) (h1 : cond1_1 (grid1.coords t)) : cfg1.idle 1 (grid1.coords t) = false :=
  Bool.eq_false_iff.mpr fun hi => (idle1_1_iff _).mp hi h1

abbrev VO1_1 : View sig .tc .vmem S512x96 .f32 := (Memref.whole cc1_stg1_0 : Memref sig .tc .vmem S512x96 .f32).view

abbrev ms1_0 (t : Fin cfg1.N) : Memref sig .tc .vmem S8192x97 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x96 .f32 := win1_1.stage (cfg1.slots t 1)
abbrev hs1_1 (t : Fin cfg1.N) : (ms1_1 t).IsWhole := hstage1_1 ((cfg1.slots t 1).cast nbuf1_1)

abbrev scM1_0 : Memref sig .tc .vmem S512x96 .f32 := Memref.whole cc1_scratch0

abbrev VS1_0 : View sig .tc .vmem S512x96 .f32 := scM1_0.view

theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

abbrev R1 : AccRegion := ⟨VO1_1, VS1_0, ms1_0, hs1_0, ms1_1, hs1_1, scM1_0, Memref.isWhole_whole _⟩

/-- Between points the scratch holds what the point before left. -/
noncomputable def PhiS1 (c : Dev nD) : (n : ℕ) → n ≤ cfg1.N → sProp 𝕄
  | 0, _ => Pipeline.ΦA spec1 c
  | n + 1, hn => iprop(owns (c : Thread nD τ) scM1_0 fullShare ((outsAt R1 c (fun t => iblk1 V c 0 t) n hn).2) ∗ Pipeline.scopedRestBut (Ix := Unit) (Name := ℕ) (U := UR sig nD τ) (Lvl := ℕ) (Val := Elt F) spec1 c [cc1_scratch0] ∗ ∃ r, prngReg c r)

theorem PhiS1_pos (c : Dev nD) (n : ℕ) (h : n ≤ cfg1.N) (hz : n ≠ 0) :
    PhiS1 V c n h = iprop(owns (c : Thread nD τ) scM1_0 fullShare ((outsAt R1 c (fun t => iblk1 V c 0 t) (n - 1) (Nat.lt_of_lt_of_le (Nat.sub_lt (Nat.pos_of_ne_zero hz) Nat.one_pos) h)).2) ∗ Pipeline.scopedRestBut (Ix := Unit) (Name := ℕ) (U := UR sig nD τ) (Lvl := ℕ) (Val := Elt F) spec1 c [cc1_scratch0] ∗ ∃ r, prngReg c r) := by
  cases n with
  | zero => exact absurd rfl hz
  | succ n => rfl

/-- At any position the scratch holds something. -/
theorem PhiS1_open (c : Dev nD) (n : ℕ) (h : n ≤ cfg1.N) :
    PhiS1 V c n h ⊢ iprop((∃ d, owns (c : Thread nD τ) scM1_0 fullShare d) ∗ Pipeline.scopedRestBut (Ix := Unit) (Name := ℕ) (U := UR sig nD τ) (Lvl := ℕ) (Val := Elt F) spec1 c [cc1_scratch0] ∗ ∃ r, prngReg c r) := by
  cases n with
  | zero =>
    rw [show PhiS1 V c 0 h = Pipeline.ΦA spec1 c from rfl, PhiA1_eq]
    iintro ⟨⟨HS0, HR⟩, Hg⟩
    iframe HS0 HR Hg
  | succ n =>
    rw [show PhiS1 V c (n + 1) h = iprop(owns (c : Thread nD τ) scM1_0 fullShare ((outsAt R1 c (fun t => iblk1 V c 0 t) n h).2) ∗ Pipeline.scopedRestBut (Ix := Unit) (Name := ℕ) (U := UR sig nD τ) (Lvl := ℕ) (Val := Elt F) spec1 c [cc1_scratch0] ∗ ∃ r, prngReg c r) from rfl]
    iintro ⟨HS0, HR⟩
    iframe HR
    iexists _; iexact HS0

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt R1 c (fun t => iblk1 V c 0 t) t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt R1 c (fun t => iblk1 V c 0 t) t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point, by the point's place in its run of 104: the scratch goes in as left and comes back as the case's sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = iprop(owns (c : Thread nD τ) scM1_0 fullShare ((outsAt R1 c (fun t => iblk1 V c 0 t) t.val t.isLt).2) ∗ Pipeline.scopedRestBut (Ix := Unit) (Name := ℕ) (U := UR sig nD τ) (Lvl := ℕ) (Val := Elt F) spec1 c [cc1_scratch0] ∗ ∃ r, prngReg c r) from rfl,
    PhiS1_castSucc V c t,
    show (dat1 V c).leavesExact 0 t = owns (c : Thread nD τ) (ms1_0 t) fullShare ((dat1 V c).after 0 t) from by
      unfold Dat.leavesExact; rw [liveAt1_0 t], after1_0]
  have hN : t.val < 10192 := lt_of_lt_of_eq t.isLt (show cfg1.N = 10192 from N_1)
  by_cases h1 : t.val % 104 = 103
  · have h0 : ¬t.val % 104 = 0 := by omega
    have hz : t.val ≠ 0 := by omega
    rw [show (dat1 V c).leavesExact 1 t = owns (c : Thread nD τ) (ms1_1 t) fullShare ((dat1 V c).after 1 t) from by
      unfold Dat.leavesExact; rw [liveAt1_1 t ((hcond1_1 t).mpr h1)], after1_1, outsAt_C R1 c t _ h0 h1, PhiS1_pos V c _ _ hz]
    unfold outsC; (try dsimp only)
    iintro ⟨⟨HS0, HR⟩, Ho, ⟨%d0, H0⟩, ⟨%d1, H1⟩⟩
    iapply ((runC R1 c t h0 h1 (iblk1 V c 0 t) _).2.2 Set.univ _)
    iframe H0 HS0
    isplitl [H1]; · iexists _; iexact H1
    iintro ⟨H0, ⟨%e1, H1⟩, ⟨%es0, HS0⟩⟩
    iframe HR Ho H0
    isplitl [HS0]
    · unfold owns; iexists _; isplitr
      swap; · iexact HS0
      ipureintro; exact View.read_writes_of_cover _ _ _ _ _ (scoverC R1 c t h0 h1 _ _)
    unfold owns; iexists _; isplitr
    swap; · iexact H1
    ipureintro; exact View.read_writes_of_cover _ _ _ _ _ (coverC R1 c t h0 h1 _ _)
  · have hi : ¬cond1_1 (grid1.coords t) := fun h => h1 ((hcond1_1 t).mp h)
    rw [Dat.leavesExact_idle (dat1 V c) 1 t (idleAt1_1 t hi) (noFlush1_1 t hi)]
    by_cases h0 : t.val % 104 = 0
    · rw [outsAt_A R1 c t _ h0 h1]
      unfold outsA; (try dsimp only)
      iintro ⟨HP, Ho, ⟨%d0, H0⟩, ⟨%d1, H1⟩⟩
      ihave ⟨HS0, HR⟩ := (PhiS1_open V c _ _) $$ HP
      iapply ((runA R1 c t h0 h1 (iblk1 V c 0 t)).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverA R1 c t h0 h1 _)
      iexists _; iexact H1
    · have hz : t.val ≠ 0 := by omega
      rw [outsAt_B R1 c t _ h0 h1, PhiS1_pos V c _ _ hz]
      unfold outsB; (try dsimp only)
      iintro ⟨⟨HS0, HR⟩, Ho, ⟨%d0, H0⟩, ⟨%d1, H1⟩⟩
      iapply ((runB R1 c t h0 h1 (iblk1 V c 0 t) _).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverB R1 c t h0 h1 _ _)
      iexists _; iexact H1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Idealize.SL.BI.Entails.refl _

theorem hout1 (c : Dev nD) : (dat1 V c).Φ (Fin.last cfg1.N) ⊢ Pipeline.ΦA spec1 c := by
  refine BIBase.Entails.trans (PhiS1_open V c (Fin.last cfg1.N).val (Nat.le_of_lt_succ (Fin.last cfg1.N).isLt)) ?_
  rw [PhiA1_eq]
  iintro ⟨HS0, HR, Hg⟩
  isplitl [HS0 HR]
  · isplitl [HS0]; · iexact HS0
    iexact HR
  iexact Hg

end Cert.Kernel.Hand

end
-- ==== Proof.K.Mm2.lean ====
import proofs.«425610_j63256278335719_1_alg».proof.Proof.Gen.Kernel.Launch
import proofs.«425610_j63256278335719_1_alg».proof.Proof.Gen.Kernel.Skeleton
import proofs.«425610_j63256278335719_1_alg».proof.Proof.Gen.Kernel.Points
import proofs.«425610_j63256278335719_1_alg».proof.Proof.K.Mm0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's product: the kernel is region 0's. -/
noncomputable def out2_2 (x0 : Vec F S512x96 .f32) (x1 : Vec F S96x96 .f32) : Vec F S512x96 .f32 :=
  View.canon [⟨r0_2, k0_pay1 (View.ld x0 r0_0) (View.ld x1 r0_1)⟩]

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel0 c Set.univ (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Agg3.lean ====
import proofs.«425610_j63256278335719_1_alg».proof.Proof.K.AggAcc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem liveAt3_0 : ∀ t : Fin cfg3.N, cfg3.idle 0 (grid3.coords t) = false := fun _ => rfl

theorem idle3_1_iff (i : grid3.Coords) : cfg3.idle 1 i = true ↔ ¬cond1_1 i := by
  have h : cfg3.idle 1 i = !(k1_cond2 i == 1#1) := rfl
  rw [h, Bool.not_eq_true', beq_eq_false_iff_ne]

theorem idleAt3_1 (t : Fin cfg3.N) (h1 : ¬cond1_1 (grid3.coords t)) : cfg3.idle 1 (grid3.coords t) = true :=
  (idle3_1_iff _).mpr h1

theorem noFlush3_1 (t : Fin cfg3.N) (h1 : ¬cond1_1 (grid3.coords t)) : (cfg3.win 1).flush t = false :=
  Bool.eq_false_iff.mpr fun hf => h1 ((hcond1_1 t).mpr ((flush3_1 t).mp hf))

theorem liveAt3_1 (t : Fin cfg3.N) (h1 : cond1_1 (grid3.coords t)) : cfg3.idle 1 (grid3.coords t) = false :=
  Bool.eq_false_iff.mpr fun hi => (idle3_1_iff _).mp hi h1

abbrev VO3_1 : View sig .tc .vmem S512x96 .f32 := (Memref.whole cc3_stg1_0 : Memref sig .tc .vmem S512x96 .f32).view

abbrev ms3_0 (t : Fin cfg3.N) : Memref sig .tc .vmem S8192x97 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x96 .f32 := win3_1.stage (cfg3.slots t 1)
abbrev hs3_1 (t : Fin cfg3.N) : (ms3_1 t).IsWhole := hstage3_1 ((cfg3.slots t 1).cast nbuf3_1)

abbrev scM3_0 : Memref sig .tc .vmem S512x96 .f32 := Memref.whole cc3_scratch0

abbrev VS3_0 : View sig .tc .vmem S512x96 .f32 := scM3_0.view

theorem PhiA3_eq (c : Dev nD) :
    (Pipeline.ΦA spec3 c : sProp 𝕄)
      = iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

abbrev R3 : AccRegion := ⟨VO3_1, VS3_0, ms3_0, hs3_0, ms3_1, hs3_1, scM3_0, Memref.isWhole_whole _⟩

/-- Between points the scratch holds what the point before left. -/
noncomputable def PhiS3 (c : Dev nD) : (n : ℕ) → n ≤ cfg3.N → sProp 𝕄
  | 0, _ => Pipeline.ΦA spec3 c
  | n + 1, hn => iprop(owns (c : Thread nD τ) scM3_0 fullShare ((outsAt R3 c (fun t => iblk3 V c 0 t) n hn).2) ∗ Pipeline.scopedRestBut (Ix := Unit) (Name := ℕ) (U := UR sig nD τ) (Lvl := ℕ) (Val := Elt F) spec3 c [cc3_scratch0] ∗ ∃ r, prngReg c r)

theorem PhiS3_pos (c : Dev nD) (n : ℕ) (h : n ≤ cfg3.N) (hz : n ≠ 0) :
    PhiS3 V c n h = iprop(owns (c : Thread nD τ) scM3_0 fullShare ((outsAt R3 c (fun t => iblk3 V c 0 t) (n - 1) (Nat.lt_of_lt_of_le (Nat.sub_lt (Nat.pos_of_ne_zero hz) Nat.one_pos) h)).2) ∗ Pipeline.scopedRestBut (Ix := Unit) (Name := ℕ) (U := UR sig nD τ) (Lvl := ℕ) (Val := Elt F) spec3 c [cc3_scratch0] ∗ ∃ r, prngReg c r) := by
  cases n with
  | zero => exact absurd rfl hz
  | succ n => rfl

/-- At any position the scratch holds something. -/
theorem PhiS3_open (c : Dev nD) (n : ℕ) (h : n ≤ cfg3.N) :
    PhiS3 V c n h ⊢ iprop((∃ d, owns (c : Thread nD τ) scM3_0 fullShare d) ∗ Pipeline.scopedRestBut (Ix := Unit) (Name := ℕ) (U := UR sig nD τ) (Lvl := ℕ) (Val := Elt F) spec3 c [cc3_scratch0] ∗ ∃ r, prngReg c r) := by
  cases n with
  | zero =>
    rw [show PhiS3 V c 0 h = Pipeline.ΦA spec3 c from rfl, PhiA3_eq]
    iintro ⟨⟨HS0, HR⟩, Hg⟩
    iframe HS0 HR Hg
  | succ n =>
    rw [show PhiS3 V c (n + 1) h = iprop(owns (c : Thread nD τ) scM3_0 fullShare ((outsAt R3 c (fun t => iblk3 V c 0 t) n h).2) ∗ Pipeline.scopedRestBut (Ix := Unit) (Name := ℕ) (U := UR sig nD τ) (Lvl := ℕ) (Val := Elt F) spec3 c [cc3_scratch0] ∗ ∃ r, prngReg c r) from rfl]
    iintro ⟨HS0, HR⟩
    iframe HR
    iexists _; iexact HS0

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt R3 c (fun t => iblk3 V c 0 t) t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = (outsAt R3 c (fun t => iblk3 V c 0 t) t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d

noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4800000 in
/-- The body at any point, by the point's place in its run of 104: the scratch goes in as left and comes back as the case's sum. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl,
    show (dat3 V c).Φ t.succ = iprop(owns (c : Thread nD τ) scM3_0 fullShare ((outsAt R3 c (fun t => iblk3 V c 0 t) t.val t.isLt).2) ∗ Pipeline.scopedRestBut (Ix := Unit) (Name := ℕ) (U := UR sig nD τ) (Lvl := ℕ) (Val := Elt F) spec3 c [cc3_scratch0] ∗ ∃ r, prngReg c r) from rfl,
    PhiS3_castSucc V c t,
    show (dat3 V c).leavesExact 0 t = owns (c : Thread nD τ) (ms3_0 t) fullShare ((dat3 V c).after 0 t) from by
      unfold Dat.leavesExact; rw [liveAt3_0 t], after3_0]
  have hN : t.val < 10192 := lt_of_lt_of_eq t.isLt (show cfg3.N = 10192 from N_3)
  by_cases h1 : t.val % 104 = 103
  · have h0 : ¬t.val % 104 = 0 := by omega
    have hz : t.val ≠ 0 := by omega
    rw [show (dat3 V c).leavesExact 1 t = owns (c : Thread nD τ) (ms3_1 t) fullShare ((dat3 V c).after 1 t) from by
      unfold Dat.leavesExact; rw [liveAt3_1 t ((hcond1_1 t).mpr h1)], after3_1, outsAt_C R3 c t _ h0 h1, PhiS3_pos V c _ _ hz]
    unfold outsC; (try dsimp only)
    iintro ⟨⟨HS0, HR⟩, Ho, ⟨%d0, H0⟩, ⟨%d1, H1⟩⟩
    iapply ((runC R3 c t h0 h1 (iblk3 V c 0 t) _).2.2 Set.univ _)
    iframe H0 HS0
    isplitl [H1]; · iexists _; iexact H1
    iintro ⟨H0, ⟨%e1, H1⟩, ⟨%es0, HS0⟩⟩
    iframe HR Ho H0
    isplitl [HS0]
    · unfold owns; iexists _; isplitr
      swap; · iexact HS0
      ipureintro; exact View.read_writes_of_cover _ _ _ _ _ (scoverC R3 c t h0 h1 _ _)
    unfold owns; iexists _; isplitr
    swap; · iexact H1
    ipureintro; exact View.read_writes_of_cover _ _ _ _ _ (coverC R3 c t h0 h1 _ _)
  · have hi : ¬cond1_1 (grid3.coords t) := fun h => h1 ((hcond1_1 t).mp h)
    rw [Dat.leavesExact_idle (dat3 V c) 1 t (idleAt3_1 t hi) (noFlush3_1 t hi)]
    by_cases h0 : t.val % 104 = 0
    · rw [outsAt_A R3 c t _ h0 h1]
      unfold outsA; (try dsimp only)
      iintro ⟨HP, Ho, ⟨%d0, H0⟩, ⟨%d1, H1⟩⟩
      ihave ⟨HS0, HR⟩ := (PhiS3_open V c _ _) $$ HP
      iapply ((runA R3 c t h0 h1 (iblk3 V c 0 t)).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverA R3 c t h0 h1 _)
      iexists _; iexact H1
    · have hz : t.val ≠ 0 := by omega
      rw [outsAt_B R3 c t _ h0 h1, PhiS3_pos V c _ _ hz]
      unfold outsB; (try dsimp only)
      iintro ⟨⟨HS0, HR⟩, Ho, ⟨%d0, H0⟩, ⟨%d1, H1⟩⟩
      iapply ((runB R3 c t h0 h1 (iblk3 V c 0 t) _).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverB R3 c t h0 h1 _ _)
      iexists _; iexact H1

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Idealize.SL.BI.Entails.refl _

theorem hout3 (c : Dev nD) : (dat3 V c).Φ (Fin.last cfg3.N) ⊢ Pipeline.ΦA spec3 c := by
  refine BIBase.Entails.trans (PhiS3_open V c (Fin.last cfg3.N).val (Nat.le_of_lt_succ (Fin.last cfg3.N).isLt)) ?_
  rw [PhiA3_eq]
  iintro ⟨HS0, HR, Hg⟩
  isplitl [HS0 HR]
  · isplitl [HS0]; · iexact HS0
    iexact HR
  iexact Hg

end Cert.Kernel.Hand

end
-- ==== Proof.K.Mm4.lean ====
import proofs.«425610_j63256278335719_1_alg».proof.Proof.Gen.Kernel.Launch
import proofs.«425610_j63256278335719_1_alg».proof.Proof.Gen.Kernel.Skeleton
import proofs.«425610_j63256278335719_1_alg».proof.Proof.Gen.Kernel.Points
import proofs.«425610_j63256278335719_1_alg».proof.Proof.K.Mm0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's product: the kernel is region 0's. -/
noncomputable def out4_2 (x0 : Vec F S512x96 .f32) (x1 : Vec F S96x96 .f32) : Vec F S512x96 .f32 :=
  View.canon [⟨r0_2, k0_pay1 (View.ld x0 r0_0) (View.ld x1 r0_1)⟩]

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel0 c Set.univ (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.K.Agg5.lean ====
import proofs.«425610_j63256278335719_1_alg».proof.Proof.K.AggAcc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem liveAt5_0 : ∀ t : Fin cfg5.N, cfg5.idle 0 (grid5.coords t) = false := fun _ => rfl

theorem idle5_1_iff (i : grid5.Coords) : cfg5.idle 1 i = true ↔ ¬cond1_1 i := by
  have h : cfg5.idle 1 i = !(k1_cond2 i == 1#1) := rfl
  rw [h, Bool.not_eq_true', beq_eq_false_iff_ne]

theorem idleAt5_1 (t : Fin cfg5.N) (h1 : ¬cond1_1 (grid5.coords t)) : cfg5.idle 1 (grid5.coords t) = true :=
  (idle5_1_iff _).mpr h1

theorem noFlush5_1 (t : Fin cfg5.N) (h1 : ¬cond1_1 (grid5.coords t)) : (cfg5.win 1).flush t = false :=
  Bool.eq_false_iff.mpr fun hf => h1 ((hcond1_1 t).mpr ((flush5_1 t).mp hf))

theorem liveAt5_1 (t : Fin cfg5.N) (h1 : cond1_1 (grid5.coords t)) : cfg5.idle 1 (grid5.coords t) = false :=
  Bool.eq_false_iff.mpr fun hi => (idle5_1_iff _).mp hi h1

abbrev VO5_1 : View sig .tc .vmem S512x96 .f32 := (Memref.whole cc5_stg1_0 : Memref sig .tc .vmem S512x96 .f32).view

abbrev ms5_0 (t : Fin cfg5.N) : Memref sig .tc .vmem S8192x97 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x96 .f32 := win5_1.stage (cfg5.slots t 1)
abbrev hs5_1 (t : Fin cfg5.N) : (ms5_1 t).IsWhole := hstage5_1 ((cfg5.slots t 1).cast nbuf5_1)

abbrev scM5_0 : Memref sig .tc .vmem S512x96 .f32 := Memref.whole cc5_scratch0

abbrev VS5_0 : View sig .tc .vmem S512x96 .f32 := scM5_0.view

theorem PhiA5_eq (c : Dev nD) :
    (Pipeline.ΦA spec5 c : sProp 𝕄)
      = iprop(iprop(iprop((∃ d, owns (c : Thread nD τ) scM5_0 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

abbrev R5 : AccRegion := ⟨VO5_1, VS5_0, ms5_0, hs5_0, ms5_1, hs5_1, scM5_0, Memref.isWhole_whole _⟩

/-- Between points the scratch holds what the point before left. -/
noncomputable def PhiS5 (c : Dev nD) : (n : ℕ) → n ≤ cfg5.N → sProp 𝕄
  | 0, _ => Pipeline.ΦA spec5 c
  | n + 1, hn => iprop(owns (c : Thread nD τ) scM5_0 fullShare ((outsAt R5 c (fun t => iblk5 V c 0 t) n hn).2) ∗ Pipeline.scopedRestBut (Ix := Unit) (Name := ℕ) (U := UR sig nD τ) (Lvl := ℕ) (Val := Elt F) spec5 c [cc5_scratch0] ∗ ∃ r, prngReg c r)

theorem PhiS5_pos (c : Dev nD) (n : ℕ) (h : n ≤ cfg5.N) (hz : n ≠ 0) :
    PhiS5 V c n h = iprop(owns (c : Thread nD τ) scM5_0 fullShare ((outsAt R5 c (fun t => iblk5 V c 0 t) (n - 1) (Nat.lt_of_lt_of_le (Nat.sub_lt (Nat.pos_of_ne_zero hz) Nat.one_pos) h)).2) ∗ Pipeline.scopedRestBut (Ix := Unit) (Name := ℕ) (U := UR sig nD τ) (Lvl := ℕ) (Val := Elt F) spec5 c [cc5_scratch0] ∗ ∃ r, prngReg c r) := by
  cases n with
  | zero => exact absurd rfl hz
  | succ n => rfl

/-- At any position the scratch holds something. -/
theorem PhiS5_open (c : Dev nD) (n : ℕ) (h : n ≤ cfg5.N) :
    PhiS5 V c n h ⊢ iprop((∃ d, owns (c : Thread nD τ) scM5_0 fullShare d) ∗ Pipeline.scopedRestBut (Ix := Unit) (Name := ℕ) (U := UR sig nD τ) (Lvl := ℕ) (Val := Elt F) spec5 c [cc5_scratch0] ∗ ∃ r, prngReg c r) := by
  cases n with
  | zero =>
    rw [show PhiS5 V c 0 h = Pipeline.ΦA spec5 c from rfl, PhiA5_eq]
    iintro ⟨⟨HS0, HR⟩, Hg⟩
    iframe HS0 HR Hg
  | succ n =>
    rw [show PhiS5 V c (n + 1) h = iprop(owns (c : Thread nD τ) scM5_0 fullShare ((outsAt R5 c (fun t => iblk5 V c 0 t) n h).2) ∗ Pipeline.scopedRestBut (Ix := Unit) (Name := ℕ) (U := UR sig nD τ) (Lvl := ℕ) (Val := Elt F) spec5 c [cc5_scratch0] ∗ ∃ r, prngReg c r) from rfl]
    iintro ⟨HS0, HR⟩
    iframe HR
    iexists _; iexact HS0

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => (outsAt R5 c (fun t => iblk5 V c 0 t) t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = (outsAt R5 c (fun t => iblk5 V c 0 t) t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d

noncomputable def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d)))

noncomputable def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t)

set_option maxHeartbeats 4800000 in
/-- The body at any point, by the point's place in its run of 104: the scratch goes in as left and comes back as the case's sum. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).owesAt () t.succ = (dat5 V c).owesAt () t.castSucc from rfl,
    show (dat5 V c).Φ t.succ = iprop(owns (c : Thread nD τ) scM5_0 fullShare ((outsAt R5 c (fun t => iblk5 V c 0 t) t.val t.isLt).2) ∗ Pipeline.scopedRestBut (Ix := Unit) (Name := ℕ) (U := UR sig nD τ) (Lvl := ℕ) (Val := Elt F) spec5 c [cc5_scratch0] ∗ ∃ r, prngReg c r) from rfl,
    PhiS5_castSucc V c t,
    show (dat5 V c).leavesExact 0 t = owns (c : Thread nD τ) (ms5_0 t) fullShare ((dat5 V c).after 0 t) from by
      unfold Dat.leavesExact; rw [liveAt5_0 t], after5_0]
  have hN : t.val < 10192 := lt_of_lt_of_eq t.isLt (show cfg5.N = 10192 from N_5)
  by_cases h1 : t.val % 104 = 103
  · have h0 : ¬t.val % 104 = 0 := by omega
    have hz : t.val ≠ 0 := by omega
    rw [show (dat5 V c).leavesExact 1 t = owns (c : Thread nD τ) (ms5_1 t) fullShare ((dat5 V c).after 1 t) from by
      unfold Dat.leavesExact; rw [liveAt5_1 t ((hcond1_1 t).mpr h1)], after5_1, outsAt_C R5 c t _ h0 h1, PhiS5_pos V c _ _ hz]
    unfold outsC; (try dsimp only)
    iintro ⟨⟨HS0, HR⟩, Ho, ⟨%d0, H0⟩, ⟨%d1, H1⟩⟩
    iapply ((runC R5 c t h0 h1 (iblk5 V c 0 t) _).2.2 Set.univ _)
    iframe H0 HS0
    isplitl [H1]; · iexists _; iexact H1
    iintro ⟨H0, ⟨%e1, H1⟩, ⟨%es0, HS0⟩⟩
    iframe HR Ho H0
    isplitl [HS0]
    · unfold owns; iexists _; isplitr
      swap; · iexact HS0
      ipureintro; exact View.read_writes_of_cover _ _ _ _ _ (scoverC R5 c t h0 h1 _ _)
    unfold owns; iexists _; isplitr
    swap; · iexact H1
    ipureintro; exact View.read_writes_of_cover _ _ _ _ _ (coverC R5 c t h0 h1 _ _)
  · have hi : ¬cond1_1 (grid5.coords t) := fun h => h1 ((hcond1_1 t).mp h)
    rw [Dat.leavesExact_idle (dat5 V c) 1 t (idleAt5_1 t hi) (noFlush5_1 t hi)]
    by_cases h0 : t.val % 104 = 0
    · rw [outsAt_A R5 c t _ h0 h1]
      unfold outsA; (try dsimp only)
      iintro ⟨HP, Ho, ⟨%d0, H0⟩, ⟨%d1, H1⟩⟩
      ihave ⟨HS0, HR⟩ := (PhiS5_open V c _ _) $$ HP
      iapply ((runA R5 c t h0 h1 (iblk5 V c 0 t)).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverA R5 c t h0 h1 _)
      iexists _; iexact H1
    · have hz : t.val ≠ 0 := by omega
      rw [outsAt_B R5 c t _ h0 h1, PhiS5_pos V c _ _ hz]
      unfold outsB; (try dsimp only)
      iintro ⟨⟨HS0, HR⟩, Ho, ⟨%d0, H0⟩, ⟨%d1, H1⟩⟩
      iapply ((runB R5 c t h0 h1 (iblk5 V c 0 t) _).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverB R5 c t h0 h1 _ _)
      iexists _; iexact H1

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 :=
  Idealize.SL.BI.Entails.refl _

theorem hout5 (c : Dev nD) : (dat5 V c).Φ (Fin.last cfg5.N) ⊢ Pipeline.ΦA spec5 c := by
  refine BIBase.Entails.trans (PhiS5_open V c (Fin.last cfg5.N).val (Nat.le_of_lt_succ (Fin.last cfg5.N).isLt)) ?_
  rw [PhiA5_eq]
  iintro ⟨HS0, HR, Hg⟩
  isplitl [HS0 HR]
  · isplitl [HS0]; · iexact HS0
    iexact HR
  iexact Hg

end Cert.Kernel.Hand

end
-- ==== Proof.Lib.WithArrays.lean ====
import Idealize.ShloMosaic.Lib.Pipeline.FrameSuffix

namespace Cert.Lib

open Idealize.ShloMosaic Idealize.ShloMosaic.TcCoe Idealize.ShloMosaic.Pipeline
open Idealize.SL Idealize.SL.RA Idealize.SL.Sem

variable {nD : Nat} {τ : Topo} {sig : RefSig} {Val : EltTy → Type} {U : Type} [URA U] {Λ₀ : Labels}

/-- A reference that is no output array of a region holds at its exit what it held at its entry. -/
theorem withArrays_of_out {cfg : Cfg sig Λ₀} {c : Dev nD} (dat : Dat τ Val Unit ℕ U ℕ cfg c)
    (hinj : Function.Injective (arrRef cfg.spec)) (W : Valuation τ sig Val) (out : List (Ref sig .tc))
    (hout : ∀ w, arrRef cfg.spec w ∉ out → (cfg.win w).isOut = false)
    (hA : ∀ w, dat.A w = W (Proc.devRef .tc (arrRef cfg.spec w))) (r : Ref sig .tc) (h : r ∉ out) :
    withArrays cfg.spec c W (fun w => dat.arrAt w cfg.N) (Proc.devRef .tc r) = W (Proc.devRef .tc r) := by
  by_cases hr : ∃ w, arrRef cfg.spec w = r
  · obtain ⟨w, rfl⟩ := hr
    exact (withArrays_arr cfg.spec hinj c _ _ w).trans ((dat.arrAt_in w (hout w h) _).trans (hA w))
  · exact withArrays_of_ne cfg.spec c _ _ r fun w e => hr ⟨w, e⟩

end Cert.Lib
-- ==== Proof.K.Fold.lean ====
import proofs.«425610_j63256278335719_1_alg».proof.Proof.K.Mm0
import proofs.«425610_j63256278335719_1_alg».proof.Proof.K.Agg1
import proofs.«425610_j63256278335719_1_alg».proof.Proof.K.Mm2
import proofs.«425610_j63256278335719_1_alg».proof.Proof.K.Agg3
import proofs.«425610_j63256278335719_1_alg».proof.Proof.K.Mm4
import proofs.«425610_j63256278335719_1_alg».proof.Proof.K.Agg5
import proofs.«425610_j63256278335719_1_alg».proof.Proof.Gen.Kernel.Regions
import proofs.«425610_j63256278335719_1_alg».proof.Proof.Lib.WithArrays
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec0 c (W4 m ρ c) fun w => (dat0 (V4 m ρ) c).arrAt w cfg0.N
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (Pipeline.withArrays_arr spec0 launch0.win.arr_inj c (W4 m ρ c) (fun w => (dat0 (V4 m ρ) c).arrAt w cfg0.N) w).symm

abbrev W6 : Dev nD → Valuation τ sig (Elt F) := fun c => StableHlo.after hostOps1 (W5 m ρ c)

abbrev W7 : Dev nD → Valuation τ sig (Elt F) := fun c => StableHlo.after hostOps1_1 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (Pipeline.withArrays_arr spec1 launch1.win.arr_inj c (W7 m ρ c) (fun w => (dat1 (V7 m ρ) c).arrAt w cfg1.N) w).symm

abbrev W9 : Dev nD → Valuation τ sig (Elt F) := fun c => StableHlo.after hostOps2 (W8 m ρ c)

abbrev W10 : Dev nD → Valuation τ sig (Elt F) := fun c => StableHlo.after hostOps2_1 (W9 m ρ c)

abbrev V10 : (c : Dev nD) → (b : Ref sig .tc) → Buf (Elt F) ((c : Thread nD τ).loc b) := fun c b => W10 m ρ c b

def W11 (c : Dev nD) : Valuation τ sig (Elt F) :=
  Pipeline.withArrays spec2 c (W10 m ρ c) fun w => (dat2 (V10 m ρ) c).arrAt w cfg2.N
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (Pipeline.withArrays_arr spec2 launch2.win.arr_inj c (W10 m ρ c) (fun w => (dat2 (V10 m ρ) c).arrAt w cfg2.N) w).symm

abbrev W12 : Dev nD → Valuation τ sig (Elt F) := fun c => StableHlo.after hostOps3 (W11 m ρ c)

abbrev W13 : Dev nD → Valuation τ sig (Elt F) := fun c => StableHlo.after hostOps3_1 (W12 m ρ c)

abbrev V13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (V13 m ρ) c).arrAt w cfg3.N
abbrev V14 : (c : Dev nD) → (b : Ref sig .tc) → Buf (Elt F) ((c : Thread nD τ).loc b) := fun c b => W14 m ρ c b
theorem hF3 (c : Dev nD) (w : Fin cfg3.W) : (dat3 (V13 m ρ) c).arrAt w cfg3.N = V14 m ρ c (Pipeline.arrRef spec3 w) :=
  (Pipeline.withArrays_arr spec3 launch3.win.arr_inj c (W13 m ρ c) (fun w => (dat3 (V13 m ρ) c).arrAt w cfg3.N) w).symm

abbrev W15 : Dev nD → Valuation τ sig (Elt F) := fun c => StableHlo.after hostOps4 (W14 m ρ c)

abbrev W16 : Dev nD → Valuation τ sig (Elt F) := fun c => StableHlo.after hostOps4_1 (W15 m ρ c)

abbrev V16 : (c : Dev nD) → (b : Ref sig .tc) → Buf (Elt F) ((c : Thread nD τ).loc b) := fun c b => W16 m ρ c b

def W17 (c : Dev nD) : Valuation τ sig (Elt F) :=
  Pipeline.withArrays spec4 c (W16 m ρ c) fun w => (dat4 (V16 m ρ) c).arrAt w cfg4.N
abbrev V17 : (c : Dev nD) → (b : Ref sig .tc) → Buf (Elt F) ((c : Thread nD τ).loc b) := fun c b => W17 m ρ c b
theorem hF4 (c : Dev nD) (w : Fin cfg4.W) : (dat4 (V16 m ρ) c).arrAt w cfg4.N = V17 m ρ c (Pipeline.arrRef spec4 w) :=
  (Pipeline.withArrays_arr spec4 launch4.win.arr_inj c (W16 m ρ c) (fun w => (dat4 (V16 m ρ) c).arrAt w cfg4.N) w).symm

abbrev W18 : Dev nD → Valuation τ sig (Elt F) := fun c => StableHlo.after hostOps5 (W17 m ρ c)

abbrev W19 : Dev nD → Valuation τ sig (Elt F) := fun c => StableHlo.after hostOps5_1 (W18 m ρ c)

abbrev V19 : (c : Dev nD) → (b : Ref sig .tc) → Buf (Elt F) ((c : Thread nD τ).loc b) := fun c b => W19 m ρ c b

def W20 (c : Dev nD) : Valuation τ sig (Elt F) :=
  Pipeline.withArrays spec5 c (W19 m ρ c) fun w => (dat5 (V19 m ρ) c).arrAt w cfg5.N
abbrev V20 : (c : Dev nD) → (b : Ref sig .tc) → Buf (Elt F) ((c : Thread nD τ).loc b) := fun c b => W20 m ρ c b
theorem hF5 (c : Dev nD) (w : Fin cfg5.W) : (dat5 (V19 m ρ) c).arrAt w cfg5.N = V20 m ρ c (Pipeline.arrRef spec5 w) :=
  (Pipeline.withArrays_arr spec5 launch5.win.arr_inj c (W19 m ρ c) (fun w => (dat5 (V19 m ρ) c).arrAt w cfg5.N) w).symm

abbrev W21 : Dev nD → Valuation τ sig (Elt F) := fun c => StableHlo.after hostOps6 (W20 m ρ c)

abbrev V21 : (c : Dev nD) → (b : Ref sig .tc) → Buf (Elt F) ((c : Thread nD τ).loc b) := fun c b => W21 m ρ c b

/-- The contents at the 22 boundaries as one family. -/
noncomputable def Wn : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | _ => W21 m ρ

/-- What the item after boundary `k` may write. -/
noncomputable def wr : ℕ → List (Ref sig .tc)
  | 0 => hostOps0_W
  | 1 => hostOps0_1_W
  | 2 => hostOps0_2_W
  | 3 => hostOps0_3_W
  | 4 => [main_v41]
  | 5 => hostOps1_W
  | 6 => hostOps1_1_W
  | 7 => [main_v48]
  | 8 => hostOps2_W
  | 9 => hostOps2_1_W
  | 10 => [main_v53]
  | 11 => hostOps3_W
  | 12 => hostOps3_1_W
  | 13 => [main_v60]
  | 14 => hostOps4_W
  | 15 => hostOps4_1_W
  | 16 => [main_v65]
  | 17 => hostOps5_W
  | 18 => hostOps5_1_W
  | 19 => [main_v72]
  | 20 => hostOps6_W
  | _ => []

/-- An item leaves what it does not write: a host stretch by its write set, a region its input arrays and all that is no array of it. -/
theorem Wn_step (c : Dev nD) (r : Ref sig .tc) :
    ∀ k, r ∉ wr k → Wn m ρ (k + 1) c (Proc.devRef .tc r) = Wn m ρ k c (Proc.devRef .tc r)
  | 0 => StableHlo.after_of_writes_sub hostOps0 _ hostOps0_writes
  | 1 => StableHlo.after_of_writes_sub hostOps0_1 _ hostOps0_1_writes
  | 2 => StableHlo.after_of_writes_sub hostOps0_2 _ hostOps0_2_writes
  | 3 => StableHlo.after_of_writes_sub hostOps0_3 _ hostOps0_3_writes
  | 4 => Cert.Lib.withArrays_of_out (dat0 (V4 m ρ) c) launch0.win.arr_inj (W4 m ρ c) _ (by decide) (A_eq0 (V4 m ρ) c) r
  | 5 => StableHlo.after_of_writes_sub hostOps1 _ hostOps1_writes
  | 6 => StableHlo.after_of_writes_sub hostOps1_1 _ hostOps1_1_writes
  | 7 => Cert.Lib.withArrays_of_out (dat1 (V7 m ρ) c) launch1.win.arr_inj (W7 m ρ c) _ (by decide) (A_eq1 (V7 m ρ) c) r
  | 8 => StableHlo.after_of_writes_sub hostOps2 _ hostOps2_writes
  | 9 => StableHlo.after_of_writes_sub hostOps2_1 _ hostOps2_1_writes
  | 10 => Cert.Lib.withArrays_of_out (dat2 (V10 m ρ) c) launch2.win.arr_inj (W10 m ρ c) _ (by decide) (A_eq2 (V10 m ρ) c) r
  | 11 => StableHlo.after_of_writes_sub hostOps3 _ hostOps3_writes
  | 12 => StableHlo.after_of_writes_sub hostOps3_1 _ hostOps3_1_writes
  | 13 => Cert.Lib.withArrays_of_out (dat3 (V13 m ρ) c) launch3.win.arr_inj (W13 m ρ c) _ (by decide) (A_eq3 (V13 m ρ) c) r
  | 14 => StableHlo.after_of_writes_sub hostOps4 _ hostOps4_writes
  | 15 => StableHlo.after_of_writes_sub hostOps4_1 _ hostOps4_1_writes
  | 16 => Cert.Lib.withArrays_of_out (dat4 (V16 m ρ) c) launch4.win.arr_inj (W16 m ρ c) _ (by decide) (A_eq4 (V16 m ρ) c) r
  | 17 => StableHlo.after_of_writes_sub hostOps5 _ hostOps5_writes
  | 18 => StableHlo.after_of_writes_sub hostOps5_1 _ hostOps5_1_writes
  | 19 => Cert.Lib.withArrays_of_out (dat5 (V19 m ρ) c) launch5.win.arr_inj (W19 m ρ c) _ (by decide) (A_eq5 (V19 m ρ) c) r
  | 20 => StableHlo.after_of_writes_sub hostOps6 _ hostOps6_writes
  | _ + 21 => fun _ => rfl

/-- A reference no item between boundaries `i` and `j` writes holds at `j` what it held at `i`: step by step. -/
theorem keep (c : Dev nD) (r : Ref sig .tc) {i j : ℕ} (hij : i ≤ j) (h : ∀ k < j, i ≤ k → r ∉ wr k) :
    Wn m ρ j c (Proc.devRef .tc r) = Wn m ρ i c (Proc.devRef .tc r) := by
  induction j, hij using Nat.le_induction with
  | base => rfl
  | succ j hij ih =>
    exact (Wn_step m ρ c r j (h j j.lt_succ_self hij)).trans (ih fun k hk => h k (hk.trans j.lt_succ_self))

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
  | ⟨2, _⟩ => fun c => dat2 (V10 m ρ) c
  | ⟨3, _⟩ => fun c => dat3 (V13 m ρ) c
  | ⟨4, _⟩ => fun c => dat4 (V16 m ρ) c
  | ⟨5, _⟩ => fun c => dat5 (V19 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W21 m ρ c) ∗ ∃ r, prngReg c r)

end Cert.Kernel.Hand

end
-- ==== Proof.Lib.RegSeg.lean ====
import Idealize.ShloMosaic.Lib.Pipeline.RegionsLoop
import Idealize.ShloMosaic.Lib.Pipeline.FrameSuffix
import Idealize.ShloMosaic.Lib.Tactic

noncomputable section

namespace Cert.Lib

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} {U : Type} [URA U]
  {Λ₀ : Labels} {P : Type} [Fintype P]

local notation "𝕄" => MT nD τ sig Unit Val ℕ U ℕ

abbrev R (c : Dev nD) : sProp 𝕄 :=
  iprop((∃ r, prngReg c r) ∗ ∃ W, owes (c : Thread nD τ) (0 : CellTallies nD τ sig Unit) W)

variable (cfgs : P → Cfg sig Λ₀)

abbrev pcs : P → PCfg sig Λ₀ Val := fun q => (cfgs q).toPCfg
abbrev adm : (q : P) → (pcs (Val := Val) cfgs q).Adm := fun q => (cfgs q).toPCfg_adm

variable {cfgs} {pdats : (p : P) → (c : Dev nD) → Dat τ Val Unit ℕ U ℕ (cfgs p) c}
  {defs₀ : Defs nD τ sig Val Λ₀} {𝒱₀ : Variants} {L : GSem nD τ sig → Finset Unit} {lv : GSem nD τ sig → Unit → ℕ}

/-- A region as one segment of the run: it changes its own arrays, to what its points write back, and nothing else. -/
def regSeg {p : P} (kit : LaunchFacts (nD := nD) (τ := τ) cfgs p)
    (hbody : ∀ c, BodyObligation (pdats p c) defs₀ 𝒱₀ () Set.univ)
    (hq : ∀ c w, (pdats p c).q w = fullShare) (howed : ∀ c t, (pdats p c).owed t = 0)
    (hrec : ∀ c, (pdats p c).recorded 0 = Set.univ)
    (W : Dev nD → Valuation τ sig Val) (hA : ∀ c w, (pdats p c).A w = W c (arrRef (cfgs p).spec w))
    (hin : ∀ c, ΦA (cfgs p).spec c ⊢ (pdats p c).Φ 0)
    (hout : ∀ c, (pdats p c).Φ (Fin.last (cfgs p).N) ⊢ ΦA (cfgs p).spec c) :
    RegionSeg (pcs cfgs) (adm cfgs) pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero (pcs cfgs) (adm cfgs) pdats () L lv p howed
  pre c := iprop(StableHlo.held (c : Thread nD τ) (ucRefs τ sig) (W c) ∗ R c)
  post c := iprop(StableHlo.held (c : Thread nD τ) (ucRefs τ sig)
    (withArrays (cfgs p).spec c (W c) fun w => (pdats p c).arrAt w (cfgs p).N) ∗ R c)
  X c := iprop(∃ r, prngReg c r)
  Y c := iprop(∃ r, prngReg c r)
  Z c := unscopedRest (cfgs p).spec c fun b => W c b
  hentry c := by
    have hsplit := arrays_of_unscopedBufs (pcs cfgs) (adm cfgs) pdats kit.win kit.arr_whole c ((pdats p c).share_full (hq c))
      (fun b => W c b) (hA c)
    rw [unscopedBufs_held] at hsplit
    unfold prefHeld Dat.owesAt owesWithin
    rw [show (Finset.univ : Finset (Fin 0)) = ∅ from rfl, BI.bigSep_empty, howed c, Dat.bound, hrec c]
    iintro ⟨⟨Hub, Hp, %O, HO⟩, -, -⟩
    ihave ⟨Ha, Hrest⟩ := hsplit $$ Hub
    imodintro
    iframe Ha Hp Hrest
    isplitr; · iempintro
    iexists O; iframe HO
    ipureintro; exact fun _ _ => Or.inl trivial
  hin c := by
    refine .trans ?_ (hin c)
    unfold ΦA
    iintro ⟨Hp, -, Hr⟩
    isplitl [Hr] <;> iassumption
  hout c := by
    refine (hout c).trans ?_
    rw [ownSems0_none]; unfold ΦA
    iintro ⟨Hr, Hp⟩
    iframe Hr Hp
    iempintro
  hexit c := by
    have hjoin := unscopedBufs_of_arrays (pcs cfgs) (adm cfgs) kit.win kit.arr_whole c pdats ((pdats p c).share_full (hq c))
      (fun b => W c b) (fun b => withArrays (cfgs p).spec c (W c) (fun w => (pdats p c).arrAt w (cfgs p).N) b)
      ((pdats p c).arrAt · (cfgs p).N)
      (fun w => (withArrays_arr (cfgs p).spec kit.win.arr_inj c (W c) (fun w => (pdats p c).arrAt w (cfgs p).N) w).symm)
      fun b hb => withArrays_of_ne _ c _ _ b fun w e => hb (Finset.mem_image.mpr ⟨w, Finset.mem_univ _, e⟩)
    rw [unscopedBufs_held] at hjoin
    unfold Dat.owesAt owesWithin
    rw [howed c]
    iintro ⟨Ha, ⟨%O, -, HO⟩, HY, Hrest⟩
    imodintro
    isplitl [Ha Hrest]
    · iapply hjoin; iframe
    isplitl [HY]; · iexact HY
    iexists O; iexact HO

end Cert.Lib

end
-- ==== Proof.K.RegSeg.lean ====
import proofs.«425610_j63256278335719_1_alg».proof.Proof.K.Fold
import proofs.«425610_j63256278335719_1_alg».proof.Proof.Lib.RegSeg

noncomputable section

namespace Cert.Kernel.Hand

open Cert.Kernel Cert.Kernel.Gen
open Idealize.ShloMosaic Idealize.SL.BI

variable {F : FTy → Type} [FloatOps F] (m : (ℓ : Loc nD τ sig) → Buf (Elt F) ℓ) (ρ : Dev nD → PrngReg)

def reg0 : Pipeline.RegionSeg (pcfgs (F := F)) adm (pdats m ρ) () defs₀ 𝒱₀ L lv 0 :=
  Lib.regSeg launch0 (body_obligation0 (V4 m ρ)) (fun _ _ => rfl) (fun _ _ => rfl) (fun _ => rfl) (W4 m ρ) (fun _ _ => rfl)
    (fun _ => .rfl) fun _ => .rfl

def reg1 : Pipeline.RegionSeg (pcfgs (F := F)) adm (pdats m ρ) () defs₀ 𝒱₀ L lv 1 :=
  Lib.regSeg launch1 (body_obligation1 (V7 m ρ)) (fun _ _ => rfl) (fun _ _ => rfl) (fun _ => rfl) (W7 m ρ) (fun _ _ => rfl)
    (hin1 (V7 m ρ)) (hout1 (V7 m ρ))

def reg2 : Pipeline.RegionSeg (pcfgs (F := F)) adm (pdats m ρ) () defs₀ 𝒱₀ L lv 2 :=
  Lib.regSeg launch2 (body_obligation2 (V10 m ρ)) (fun _ _ => rfl) (fun _ _ => rfl) (fun _ => rfl) (W10 m ρ) (fun _ _ => rfl)
    (fun _ => .rfl) fun _ => .rfl

def reg3 : Pipeline.RegionSeg (pcfgs (F := F)) adm (pdats m ρ) () defs₀ 𝒱₀ L lv 3 :=
  Lib.regSeg launch3 (body_obligation3 (V13 m ρ)) (fun _ _ => rfl) (fun _ _ => rfl) (fun _ => rfl) (W13 m ρ) (fun _ _ => rfl)
    (hin3 (V13 m ρ)) (hout3 (V13 m ρ))

def reg4 : Pipeline.RegionSeg (pcfgs (F := F)) adm (pdats m ρ) () defs₀ 𝒱₀ L lv 4 :=
  Lib.regSeg launch4 (body_obligation4 (V16 m ρ)) (fun _ _ => rfl) (fun _ _ => rfl) (fun _ => rfl) (W16 m ρ) (fun _ _ => rfl)
    (fun _ => .rfl) fun _ => .rfl

def reg5 : Pipeline.RegionSeg (pcfgs (F := F)) adm (pdats m ρ) () defs₀ 𝒱₀ L lv 5 :=
  Lib.regSeg launch5 (body_obligation5 (V19 m ρ)) (fun _ _ => rfl) (fun _ _ => rfl) (fun _ => rfl) (W19 m ρ) (fun _ _ => rfl)
    (hin5 (V19 m ρ)) (hout5 (V19 m ρ))

end Cert.Kernel.Hand

end
-- ==== Proof.K.Run.lean ====
import proofs.«425610_j63256278335719_1_alg».proof.Proof.K.RegSeg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .region (reg1 m ρ),
    .host (hseg hostOps2 hostOps2_sub hostOps2_fresh (W8 m ρ)),
    .host (hseg hostOps2_1 hostOps2_1_sub hostOps2_1_fresh (W9 m ρ)),
    .region (reg2 m ρ),
    .host (hseg hostOps3 hostOps3_sub hostOps3_fresh (W11 m ρ)),
    .host (hseg hostOps3_1 hostOps3_1_sub hostOps3_1_fresh (W12 m ρ)),
    .region (reg3 m ρ),
    .host (hseg hostOps4 hostOps4_sub hostOps4_fresh (W14 m ρ)),
    .host (hseg hostOps4_1 hostOps4_1_sub hostOps4_1_fresh (W15 m ρ)),
    .region (reg4 m ρ),
    .host (hseg hostOps5 hostOps5_sub hostOps5_fresh (W17 m ρ)),
    .host (hseg hostOps5_1 hostOps5_1_sub hostOps5_1_fresh (W18 m ρ)),
    .region (reg5 m ρ),
    .host (hseg hostOps6 hostOps6_sub hostOps6_fresh (W20 m ρ)) ]

theorem main_run (c : Dev nD) : main (F := F) c = Pipeline.Seg.run (segs m ρ) := by
  rw [main_chain c, Pipeline.Seg.run_eq_chain]
  exact congrArg Pipeline.chain (show _ = (segs m ρ).map Pipeline.Seg.prog from rfl)

theorem last_post (c : Dev nD) :
    (iprop(StableHlo.held (c : Thread nD τ) (Pipeline.ucRefs τ sig) (W21 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, last_post m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

theorem run_result : θ_run defs (onTc (τ := τ) (main (F := F))) ⟨m, fun _ => 0, ρ⟩ (fun r => ∀ c : Dev nD,
      r.2.mem ((c.tc : Thread nD τ).loc main_v92) = W21 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have k : ∀ a : Ref sig .tc, ¬(Proc.devRef .tc a : DevRef τ sig).isScoped → (∀ k < 21, 0 ≤ k → a ∉ wr k) →
        r.2.mem ((c.tc : Thread nD τ).loc a) = m ((c.tc : Thread nD τ).loc a) :=
      fun a hu hw => (h c _ (mem_uc a hu)).trans (keep m ρ c a (Nat.zero_le 21) hw)
    ⟨h c _ (mem_uc main_v92 (by decide)),
      k main_arg0 (by decide) (by decide),
      k main_arg1 (by decide) (by decide),
      k main_arg2 (by decide) (by decide),
      k main_arg3 (by decide) (by decide),
      k main_arg4 (by decide) (by decide),
      k main_arg5 (by decide) (by decide),
      k main_arg6 (by decide) (by decide),
      k main_arg7 (by decide) (by decide),
      k main_arg8 (by decide) (by decide),
      k main_arg9 (by decide) (by decide),
      k main_arg10 (by decide) (by decide),
      k main_arg11 (by decide) (by decide)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.Kernel.Hand

end
-- ==== Proof.KI.Mm0.lean ====
import proofs.«425610_j63256278335719_1_alg».proof.Proof.Gen.KernelIdeal.Launch
import proofs.«425610_j63256278335719_1_alg».proof.Proof.Gen.KernelIdeal.Skeleton
import proofs.«425610_j63256278335719_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x96 := Rect.unit (s := S512x96) ![0, 0] S512x96.size inb_S512x96_S512x96_0_0
abbrev r0_1 : Rect S96x96 := Rect.unit (s := S96x96) ![0, 0] S96x96.size inb_S96x96_S96x96_0_0
abbrev r0_2 : Rect S512x96 := Rect.unit (s := S512x96) ![0, 0] S512x96.size inb_S512x96_S512x96_0_0

noncomputable def out0_2 (x0 : Vec F S512x96 .f32) (x1 : Vec F S96x96 .f32) : Vec F S512x96 .f32 :=
  View.canon [⟨r0_2, k0_pay1 (View.ld x0 r0_0) (View.ld x1 r0_1)⟩]

theorem cover0_2 (p0 : Vec F S512x96 .f32) (y : S512x96.Idx) :
    ∃ pc ∈ ([⟨r0_2, p0⟩] : List (View.Piece (Elt F) S512x96 .f32)), y ∈ pc.1.set :=
  View.cover_of_tiled [⟨r0_2, p0⟩] S512x96.size (by rfl) y

set_option maxHeartbeats 1000000 in

theorem sound_kernel0 (c : Dev nD) (E : Set ℕ) (i : grid0.Coords) (arg1 : Memref sig .tc .vmem S512x96 .f32) (harg1 : arg1.IsWhole) (arg2 : Memref sig .tc .vmem S96x96 .f32) (harg2 : arg2.IsWhole) (arg3 : Memref sig .tc .vmem S512x96 .f32) (harg3 : arg3.IsWhole)
    (x0 : Vec F S512x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_matmul_kernel i arg1 harg1 arg2 harg2 arg3 harg3) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.AggRuns.lean ====
import proofs.«425610_j63256278335719_1_alg».proof.Proof.Gen.KernelIdeal.Launch
import proofs.«425610_j63256278335719_1_alg».proof.Proof.Gen.KernelIdeal.Skeleton
import proofs.«425610_j63256278335719_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 104 = 0 :=
  (by decide +kernel : ∀ t : Fin grid1.N, cond1_0 (grid1.coords t) ↔ t.val % 104 = 0)

abbrev cond1_1 (i : grid1.Coords) : Prop := k1_cond2 i = 1#1

theorem hcond1_1 : ∀ t : Fin cfg1.N, cond1_1 (grid1.coords t) ↔ t.val % 104 = 103 :=
  (by decide +kernel : ∀ t : Fin grid1.N, cond1_1 (grid1.coords t) ↔ t.val % 104 = 103)

section
variable (c : Dev nD) (i : grid1.Coords) (arg2 : Memref sig .tc .vmem S8192x97 .f32) (harg2 : arg2.IsWhole) (arg3 : Memref sig .tc .vmem S512x96 .f32) (harg3 : arg3.IsWhole) (arg4 : Memref sig .tc .vmem S512x96 .f32) (harg4 : arg4.IsWhole)

set_option maxHeartbeats 1000000 in

noncomputable def kernelRun1_A (hc0 : cond1_0 i) (hc1 : ¬cond1_1 i)
    (x0 : Vec F S8192x97 .f32) :
    Σ' (L1 : List (View.Piece (Elt F) S512x96 .f32)), { LS0 : List (View.Piece (Elt F) S512x96 .f32) //
      ∀ (xi1 : Vec F S512x96 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1_agg_kernel i arg2 harg2 arg3 harg3 arg4 harg4) K } := by
  refine ⟨[], ?_, fun xi1 E K => ?run⟩
  case run =>
    simp only [cc1_agg_kernel_eq_skeleton]; unfold cc1_agg_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in

noncomputable def kernelRun1_B (hc0 : ¬cond1_0 i) (hc1 : ¬cond1_1 i)
    (x0 : Vec F S8192x97 .f32) (xs0 : Vec F S512x96 .f32) :
    Σ' (L1 : List (View.Piece (Elt F) S512x96 .f32)), { LS0 : List (View.Piece (Elt F) S512x96 .f32) //
      ∀ (xi1 : Vec F S512x96 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1_agg_kernel i arg2 harg2 arg3 harg3 arg4 harg4) K } := by
  refine ⟨[], ?_, fun xi1 E K => ?run⟩
  case run =>
    simp only [cc1_agg_kernel_eq_skeleton]; unfold cc1_agg_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in

noncomputable def kernelRun1_C (hc0 : ¬cond1_0 i) (hc1 : cond1_1 i)
    (x0 : Vec F S8192x97 .f32) (xs0 : Vec F S512x96 .f32) :
    Σ' (L1 : List (View.Piece (Elt F) S512x96 .f32)), { LS0 : List (View.Piece (Elt F) S512x96 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc1_agg_kernel i arg2 harg2 arg3 harg3 arg4 harg4) K } := by
  refine ⟨?_, ?_, fun E K => ?run⟩
  case run =>
    simp only [cc1_agg_kernel_eq_skeleton]; unfold cc1_agg_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end

end Cert.KernelIdeal.Hand

end
-- ==== Proof.KI.AggAcc.lean ====
import proofs.«425610_j63256278335719_1_alg».proof.Proof.KI.AggRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What differs between the three accumulator regions: the memrefs of each point and the scratch; grid, kernel and conditions are shared. -/
structure AccRegion where
  VO : View sig .tc .vmem S512x96 .f32
  VS : View sig .tc .vmem S512x96 .f32
  ms0 : Fin cfg1.N → Memref sig .tc .vmem S8192x97 .f32
  hs0 : ∀ t, (ms0 t).IsWhole
  ms1 : Fin cfg1.N → Memref sig .tc .vmem S512x96 .f32
  hs1 : ∀ t, (ms1 t).IsWhole
  sc : Memref sig .tc .vmem S512x96 .f32
  hsc : sc.IsWhole

variable (R : AccRegion) (c : Dev nD) (t : Fin cfg1.N)

/-- The body's run at point t of the region, in the first, an inner, and the last point of a run of 104. -/
abbrev runA (h0 : t.val % 104 = 0) (h1 : ¬t.val % 104 = 103) :=
  kernelRun1_A (F := F) c (grid1.coords t) (R.ms0 t) (R.hs0 t) (R.ms1 t) (R.hs1 t) R.sc R.hsc ((hcond1_0 t).mpr h0) (fun h => h1 ((hcond1_1 t).mp h))
abbrev runB (h0 : ¬t.val % 104 = 0) (h1 : ¬t.val % 104 = 103) :=
  kernelRun1_B (F := F) c (grid1.coords t) (R.ms0 t) (R.hs0 t) (R.ms1 t) (R.hs1 t) R.sc R.hsc (fun h => h0 ((hcond1_0 t).mp h)) (fun h => h1 ((hcond1_1 t).mp h))
abbrev runC (h0 : ¬t.val % 104 = 0) (h1 : t.val % 104 = 103) :=
  kernelRun1_C (F := F) c (grid1.coords t) (R.ms0 t) (R.hs0 t) (R.ms1 t) (R.hs1 t) R.sc R.hsc (fun h => h0 ((hcond1_0 t).mp h)) ((hcond1_1 t).mpr h1)

/-- Each case's pieces for the scratch tile it; so do the last case's for the output block. -/
theorem scoverA (h0 : t.val % 104 = 0) (h1 : ¬t.val % 104 = 103) (x0 : Vec F S8192x97 .f32) (y : S512x96.Idx) :
    ∃ pc ∈ (runA R c t h0 h1 x0).2.1, y ∈ pc.1.set :=
  View.cover_of_tiledL _ S512x96.size (by sl_kernel_rfl) y
theorem scoverB (h0 : ¬t.val % 104 = 0) (h1 : ¬t.val % 104 = 103) (x0 : Vec F S8192x97 .f32) (xs0 : Vec F S512x96 .f32) (y : S512x96.Idx) :
    ∃ pc ∈ (runB R c t h0 h1 x0 xs0).2.1, y ∈ pc.1.set :=
  View.cover_of_tiledL _ S512x96.size (by sl_kernel_rfl) y
theorem scoverC (h0 : ¬t.val % 104 = 0) (h1 : t.val % 104 = 103) (x0 : Vec F S8192x97 .f32) (xs0 : Vec F S512x96 .f32) (y : S512x96.Idx) :
    ∃ pc ∈ (runC R c t h0 h1 x0 xs0).2.1, y ∈ pc.1.set :=
  View.cover_of_tiledL _ S512x96.size (by sl_kernel_rfl) y
theorem coverC (h0 : ¬t.val % 104 = 0) (h1 : t.val % 104 = 103) (x0 : Vec F S8192x97 .f32) (xs0 : Vec F S512x96 .f32) (y : S512x96.Idx) :
    ∃ pc ∈ (runC R c t h0 h1 x0 xs0).1, y ∈ pc.1.set :=
  View.cover_of_tiledL _ S512x96.size (by sl_kernel_rfl) y

/-- Pieces read back through a view over its junk. -/
abbrev back (v : View sig .tc .vmem S512x96 .f32) (L : List (View.Piece (Elt F) S512x96 .f32)) : Vec F S512x96 .f32 :=
  v.read (Elt F) (v.writes (Elt F) v.junk L)

/-- What a case leaves: the output block (a placeholder where the case stores none), then the scratch. -/
noncomputable def outsA (h0 : t.val % 104 = 0) (h1 : ¬t.val % 104 = 103) (x0 : Vec F S8192x97 .f32) : Vec F S512x96 .f32 × Vec F S512x96 .f32 :=
  (back R.VO (runA R c t h0 h1 x0).1, back R.VS (runA R c t h0 h1 x0).2.1)
noncomputable def outsB (h0 : ¬t.val % 104 = 0) (h1 : ¬t.val % 104 = 103) (x0 : Vec F S8192x97 .f32) (xs0 : Vec F S512x96 .f32) : Vec F S512x96 .f32 × Vec F S512x96 .f32 :=
  (back R.VO (runB R c t h0 h1 x0 xs0).1, back R.VS (runB R c t h0 h1 x0 xs0).2.1)
noncomputable def outsC (h0 : ¬t.val % 104 = 0) (h1 : t.val % 104 = 103) (x0 : Vec F S8192x97 .f32) (xs0 : Vec F S512x96 .f32) : Vec F S512x96 .f32 × Vec F S512x96 .f32 :=
  (back R.VO (runC R c t h0 h1 x0 xs0).1, back R.VS (runC R c t h0 h1 x0 xs0).2.1)

/-- The output buffer and the scratch after position n: each point adds its product to what the point before left, a run's first point to zero. -/
noncomputable def outsAt (blk : Fin cfg1.N → Vec F S8192x97 .f32) : (n : ℕ) → n < cfg1.N → Vec F S512x96 .f32 × Vec F S512x96 .f32
  | 0, hn => outsA R c ⟨0, hn⟩ (Nat.zero_mod _) (show ¬0 % 104 = 103 by decide) (blk ⟨0, hn⟩)
  | n + 1, hn =>
    if h1 : (n + 1) % 104 = 103 then
      outsC R c ⟨n + 1, hn⟩ (show ¬(n + 1) % 104 = 0 by omega) h1 (blk ⟨n + 1, hn⟩) (outsAt blk n (Nat.lt_of_succ_lt hn)).2
    else if h0 : (n + 1) % 104 = 0 then outsA R c ⟨n + 1, hn⟩ h0 h1 (blk ⟨n + 1, hn⟩)
    else outsB R c ⟨n + 1, hn⟩ h0 h1 (blk ⟨n + 1, hn⟩) (outsAt blk n (Nat.lt_of_succ_lt hn)).2

variable (blk : Fin cfg1.N → Vec F S8192x97 .f32)

theorem outsAt_A (h0 : t.val % 104 = 0) (h1 : ¬t.val % 104 = 103) :
    outsAt R c blk t.val t.isLt = outsA R c t h0 h1 (blk t) := by
  obtain ⟨n, hn⟩ := t
  cases n with
  | zero => rfl
  | succ n => exact (dif_neg h1).trans (dif_pos h0)

theorem outsAt_B (h0 : ¬t.val % 104 = 0) (h1 : ¬t.val % 104 = 103) :
    outsAt R c blk t.val t.isLt = outsB R c t h0 h1 (blk t) (outsAt R c blk (t.val - 1) (Nat.lt_of_le_of_lt (Nat.sub_le _ _) t.isLt)).2 := by
  obtain ⟨n, hn⟩ := t
  cases n with
  | zero => exact absurd (Nat.zero_mod _) h0
  | succ n => exact (dif_neg h1).trans (dif_neg h0)

theorem outsAt_C (h0 : ¬t.val % 104 = 0) (h1 : t.val % 104 = 103) :
    outsAt R c blk t.val t.isLt = outsC R c t h0 h1 (blk t) (outsAt R c blk (t.val - 1) (Nat.lt_of_le_of_lt (Nat.sub_le _ _) t.isLt)).2 := by
  obtain ⟨n, hn⟩ := t
  cases n with
  | zero => exact absurd (Nat.zero_mod _) h0
  | succ n => exact dif_pos h1

end Cert.KernelIdeal.Hand

end
-- ==== Proof.KI.Agg1.lean ====
import proofs.«425610_j63256278335719_1_alg».proof.Proof.KI.AggAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem liveAt1_0 : ∀ t : Fin cfg1.N, cfg1.idle 0 (grid1.coords t) = false := fun _ => rfl

theorem idle1_1_iff (i : grid1.Coords) : cfg1.idle 1 i = true ↔ ¬cond1_1 i := by
  have h : cfg1.idle 1 i = !(k1_cond2 i == 1#1) := rfl
  rw [h, Bool.not_eq_true', beq_eq_false_iff_ne]

theorem idleAt1_1 (t : Fin cfg1.N) (h1 : ¬cond1_1 (grid1.coords t)) : cfg1.idle 1 (grid1.coords t) = true :=
  (idle1_1_iff _).mpr h1

theorem noFlush1_1 (t : Fin cfg1.N) (h1 : ¬cond1_1 (grid1.coords t)) : (cfg1.win 1).flush t = false :=
  Bool.eq_false_iff.mpr fun hf => h1 ((hcond1_1 t).mpr ((flush1_1 t).mp hf))

theorem liveAt1_1 (t : Fin cfg1.N) (h1 : cond1_1 (grid1.coords t)) : cfg1.idle 1 (grid1.coords t) = false :=
  Bool.eq_false_iff.mpr fun hi => (idle1_1_iff _).mp hi h1

abbrev VO1_1 : View sig .tc .vmem S512x96 .f32 := (Memref.whole cc1_stg1_0 : Memref sig .tc .vmem S512x96 .f32).view

abbrev ms1_0 (t : Fin cfg1.N) : Memref sig .tc .vmem S8192x97 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x96 .f32 := win1_1.stage (cfg1.slots t 1)
abbrev hs1_1 (t : Fin cfg1.N) : (ms1_1 t).IsWhole := hstage1_1 ((cfg1.slots t 1).cast nbuf1_1)

abbrev scM1_0 : Memref sig .tc .vmem S512x96 .f32 := Memref.whole cc1_scratch0

abbrev VS1_0 : View sig .tc .vmem S512x96 .f32 := scM1_0.view

theorem PhiA1_eq (c : Dev nD) :
    (Pipeline.ΦA spec1 c : sProp 𝕄)
      = iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

abbrev R1 : AccRegion := ⟨VO1_1, VS1_0, ms1_0, hs1_0, ms1_1, hs1_1, scM1_0, Memref.isWhole_whole _⟩

/-- Between points the scratch holds what the point before left. -/
noncomputable def PhiS1 (c : Dev nD) : (n : ℕ) → n ≤ cfg1.N → sProp 𝕄
  | 0, _ => Pipeline.ΦA spec1 c
  | n + 1, hn => iprop(owns (c : Thread nD τ) scM1_0 fullShare ((outsAt R1 c (fun t => iblk1 V c 0 t) n hn).2) ∗ Pipeline.scopedRestBut (Ix := Unit) (Name := ℕ) (U := UR sig nD τ) (Lvl := ℕ) (Val := Elt F) spec1 c [cc1_scratch0] ∗ ∃ r, prngReg c r)

theorem PhiS1_pos (c : Dev nD) (n : ℕ) (h : n ≤ cfg1.N) (hz : n ≠ 0) :
    PhiS1 V c n h = iprop(owns (c : Thread nD τ) scM1_0 fullShare ((outsAt R1 c (fun t => iblk1 V c 0 t) (n - 1) (Nat.lt_of_lt_of_le (Nat.sub_lt (Nat.pos_of_ne_zero hz) Nat.one_pos) h)).2) ∗ Pipeline.scopedRestBut (Ix := Unit) (Name := ℕ) (U := UR sig nD τ) (Lvl := ℕ) (Val := Elt F) spec1 c [cc1_scratch0] ∗ ∃ r, prngReg c r) := by
  cases n with
  | zero => exact absurd rfl hz
  | succ n => rfl

/-- At any position the scratch holds something. -/
theorem PhiS1_open (c : Dev nD) (n : ℕ) (h : n ≤ cfg1.N) :
    PhiS1 V c n h ⊢ iprop((∃ d, owns (c : Thread nD τ) scM1_0 fullShare d) ∗ Pipeline.scopedRestBut (Ix := Unit) (Name := ℕ) (U := UR sig nD τ) (Lvl := ℕ) (Val := Elt F) spec1 c [cc1_scratch0] ∗ ∃ r, prngReg c r) := by
  cases n with
  | zero =>
    rw [show PhiS1 V c 0 h = Pipeline.ΦA spec1 c from rfl, PhiA1_eq]
    iintro ⟨⟨HS0, HR⟩, Hg⟩
    iframe HS0 HR Hg
  | succ n =>
    rw [show PhiS1 V c (n + 1) h = iprop(owns (c : Thread nD τ) scM1_0 fullShare ((outsAt R1 c (fun t => iblk1 V c 0 t) n h).2) ∗ Pipeline.scopedRestBut (Ix := Unit) (Name := ℕ) (U := UR sig nD τ) (Lvl := ℕ) (Val := Elt F) spec1 c [cc1_scratch0] ∗ ∃ r, prngReg c r) from rfl]
    iintro ⟨HS0, HR⟩
    iframe HR
    iexists _; iexact HS0

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt R1 c (fun t => iblk1 V c 0 t) t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = (outsAt R1 c (fun t => iblk1 V c 0 t) t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point, by the point's place in its run of 104: the scratch goes in as left and comes back as the case's sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = iprop(owns (c : Thread nD τ) scM1_0 fullShare ((outsAt R1 c (fun t => iblk1 V c 0 t) t.val t.isLt).2) ∗ Pipeline.scopedRestBut (Ix := Unit) (Name := ℕ) (U := UR sig nD τ) (Lvl := ℕ) (Val := Elt F) spec1 c [cc1_scratch0] ∗ ∃ r, prngReg c r) from rfl,
    PhiS1_castSucc V c t,
    show (dat1 V c).leavesExact 0 t = owns (c : Thread nD τ) (ms1_0 t) fullShare ((dat1 V c).after 0 t) from by
      unfold Dat.leavesExact; rw [liveAt1_0 t], after1_0]
  have hN : t.val < 10192 := lt_of_lt_of_eq t.isLt (show cfg1.N = 10192 from N_1)
  by_cases h1 : t.val % 104 = 103
  · have h0 : ¬t.val % 104 = 0 := by omega
    have hz : t.val ≠ 0 := by omega
    rw [show (dat1 V c).leavesExact 1 t = owns (c : Thread nD τ) (ms1_1 t) fullShare ((dat1 V c).after 1 t) from by
      unfold Dat.leavesExact; rw [liveAt1_1 t ((hcond1_1 t).mpr h1)], after1_1, outsAt_C R1 c t _ h0 h1, PhiS1_pos V c _ _ hz]
    unfold outsC; (try dsimp only)
    iintro ⟨⟨HS0, HR⟩, Ho, ⟨%d0, H0⟩, ⟨%d1, H1⟩⟩
    iapply ((runC R1 c t h0 h1 (iblk1 V c 0 t) _).2.2 Set.univ _)
    iframe H0 HS0
    isplitl [H1]; · iexists _; iexact H1
    iintro ⟨H0, ⟨%e1, H1⟩, ⟨%es0, HS0⟩⟩
    iframe HR Ho H0
    isplitl [HS0]
    · unfold owns; iexists _; isplitr
      swap; · iexact HS0
      ipureintro; exact View.read_writes_of_cover _ _ _ _ _ (scoverC R1 c t h0 h1 _ _)
    unfold owns; iexists _; isplitr
    swap; · iexact H1
    ipureintro; exact View.read_writes_of_cover _ _ _ _ _ (coverC R1 c t h0 h1 _ _)
  · have hi : ¬cond1_1 (grid1.coords t) := fun h => h1 ((hcond1_1 t).mp h)
    rw [Dat.leavesExact_idle (dat1 V c) 1 t (idleAt1_1 t hi) (noFlush1_1 t hi)]
    by_cases h0 : t.val % 104 = 0
    · rw [outsAt_A R1 c t _ h0 h1]
      unfold outsA; (try dsimp only)
      iintro ⟨HP, Ho, ⟨%d0, H0⟩, ⟨%d1, H1⟩⟩
      ihave ⟨HS0, HR⟩ := (PhiS1_open V c _ _) $$ HP
      iapply ((runA R1 c t h0 h1 (iblk1 V c 0 t)).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverA R1 c t h0 h1 _)
      iexists _; iexact H1
    · have hz : t.val ≠ 0 := by omega
      rw [outsAt_B R1 c t _ h0 h1, PhiS1_pos V c _ _ hz]
      unfold outsB; (try dsimp only)
      iintro ⟨⟨HS0, HR⟩, Ho, ⟨%d0, H0⟩, ⟨%d1, H1⟩⟩
      iapply ((runB R1 c t h0 h1 (iblk1 V c 0 t) _).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverB R1 c t h0 h1 _ _)
      iexists _; iexact H1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Idealize.SL.BI.Entails.refl _

theorem hout1 (c : Dev nD) : (dat1 V c).Φ (Fin.last cfg1.N) ⊢ Pipeline.ΦA spec1 c := by
  refine BIBase.Entails.trans (PhiS1_open V c (Fin.last cfg1.N).val (Nat.le_of_lt_succ (Fin.last cfg1.N).isLt)) ?_
  rw [PhiA1_eq]
  iintro ⟨HS0, HR, Hg⟩
  isplitl [HS0 HR]
  · isplitl [HS0]; · iexact HS0
    iexact HR
  iexact Hg

end Cert.KernelIdeal.Hand

end
-- ==== Proof.KI.Mm2.lean ====
import proofs.«425610_j63256278335719_1_alg».proof.Proof.Gen.KernelIdeal.Launch
import proofs.«425610_j63256278335719_1_alg».proof.Proof.Gen.KernelIdeal.Skeleton
import proofs.«425610_j63256278335719_1_alg».proof.Proof.Gen.KernelIdeal.Points
import proofs.«425610_j63256278335719_1_alg».proof.Proof.KI.Mm0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body's product: the kernel is region 0's. -/
noncomputable def out2_2 (x0 : Vec F S512x96 .f32) (x1 : Vec F S96x96 .f32) : Vec F S512x96 .f32 :=
  View.canon [⟨r0_2, k0_pay1 (View.ld x0 r0_0) (View.ld x1 r0_1)⟩]

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

noncomputable def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

noncomputable def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel0 c Set.univ (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Agg3.lean ====
import proofs.«425610_j63256278335719_1_alg».proof.Proof.KI.AggAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem liveAt3_0 : ∀ t : Fin cfg3.N, cfg3.idle 0 (grid3.coords t) = false := fun _ => rfl

theorem idle3_1_iff (i : grid3.Coords) : cfg3.idle 1 i = true ↔ ¬cond1_1 i := by
  have h : cfg3.idle 1 i = !(k1_cond2 i == 1#1) := rfl
  rw [h, Bool.not_eq_true', beq_eq_false_iff_ne]

theorem idleAt3_1 (t : Fin cfg3.N) (h1 : ¬cond1_1 (grid3.coords t)) : cfg3.idle 1 (grid3.coords t) = true :=
  (idle3_1_iff _).mpr h1

theorem noFlush3_1 (t : Fin cfg3.N) (h1 : ¬cond1_1 (grid3.coords t)) : (cfg3.win 1).flush t = false :=
  Bool.eq_false_iff.mpr fun hf => h1 ((hcond1_1 t).mpr ((flush3_1 t).mp hf))

theorem liveAt3_1 (t : Fin cfg3.N) (h1 : cond1_1 (grid3.coords t)) : cfg3.idle 1 (grid3.coords t) = false :=
  Bool.eq_false_iff.mpr fun hi => (idle3_1_iff _).mp hi h1

abbrev VO3_1 : View sig .tc .vmem S512x96 .f32 := (Memref.whole cc3_stg1_0 : Memref sig .tc .vmem S512x96 .f32).view

abbrev ms3_0 (t : Fin cfg3.N) : Memref sig .tc .vmem S8192x97 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x96 .f32 := win3_1.stage (cfg3.slots t 1)
abbrev hs3_1 (t : Fin cfg3.N) : (ms3_1 t).IsWhole := hstage3_1 ((cfg3.slots t 1).cast nbuf3_1)

abbrev scM3_0 : Memref sig .tc .vmem S512x96 .f32 := Memref.whole cc3_scratch0

abbrev VS3_0 : View sig .tc .vmem S512x96 .f32 := scM3_0.view

theorem PhiA3_eq (c : Dev nD) :
    (Pipeline.ΦA spec3 c : sProp 𝕄)
      = iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

abbrev R3 : AccRegion := ⟨VO3_1, VS3_0, ms3_0, hs3_0, ms3_1, hs3_1, scM3_0, Memref.isWhole_whole _⟩

/-- Between points the scratch holds what the point before left. -/
noncomputable def PhiS3 (c : Dev nD) : (n : ℕ) → n ≤ cfg3.N → sProp 𝕄
  | 0, _ => Pipeline.ΦA spec3 c
  | n + 1, hn => iprop(owns (c : Thread nD τ) scM3_0 fullShare ((outsAt R3 c (fun t => iblk3 V c 0 t) n hn).2) ∗ Pipeline.scopedRestBut (Ix := Unit) (Name := ℕ) (U := UR sig nD τ) (Lvl := ℕ) (Val := Elt F) spec3 c [cc3_scratch0] ∗ ∃ r, prngReg c r)

theorem PhiS3_pos (c : Dev nD) (n : ℕ) (h : n ≤ cfg3.N) (hz : n ≠ 0) :
    PhiS3 V c n h = iprop(owns (c : Thread nD τ) scM3_0 fullShare ((outsAt R3 c (fun t => iblk3 V c 0 t) (n - 1) (Nat.lt_of_lt_of_le (Nat.sub_lt (Nat.pos_of_ne_zero hz) Nat.one_pos) h)).2) ∗ Pipeline.scopedRestBut (Ix := Unit) (Name := ℕ) (U := UR sig nD τ) (Lvl := ℕ) (Val := Elt F) spec3 c [cc3_scratch0] ∗ ∃ r, prngReg c r) := by
  cases n with
  | zero => exact absurd rfl hz
  | succ n => rfl

/-- At any position the scratch holds something. -/
theorem PhiS3_open (c : Dev nD) (n : ℕ) (h : n ≤ cfg3.N) :
    PhiS3 V c n h ⊢ iprop((∃ d, owns (c : Thread nD τ) scM3_0 fullShare d) ∗ Pipeline.scopedRestBut (Ix := Unit) (Name := ℕ) (U := UR sig nD τ) (Lvl := ℕ) (Val := Elt F) spec3 c [cc3_scratch0] ∗ ∃ r, prngReg c r) := by
  cases n with
  | zero =>
    rw [show PhiS3 V c 0 h = Pipeline.ΦA spec3 c from rfl, PhiA3_eq]
    iintro ⟨⟨HS0, HR⟩, Hg⟩
    iframe HS0 HR Hg
  | succ n =>
    rw [show PhiS3 V c (n + 1) h = iprop(owns (c : Thread nD τ) scM3_0 fullShare ((outsAt R3 c (fun t => iblk3 V c 0 t) n h).2) ∗ Pipeline.scopedRestBut (Ix := Unit) (Name := ℕ) (U := UR sig nD τ) (Lvl := ℕ) (Val := Elt F) spec3 c [cc3_scratch0] ∗ ∃ r, prngReg c r) from rfl]
    iintro ⟨HS0, HR⟩
    iframe HR
    iexists _; iexact HS0

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt R3 c (fun t => iblk3 V c 0 t) t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = (outsAt R3 c (fun t => iblk3 V c 0 t) t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d

noncomputable def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

noncomputable def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 4800000 in
/-- The body at any point, by the point's place in its run of 104: the scratch goes in as left and comes back as the case's sum. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl,
    show (dat3 V c).Φ t.succ = iprop(owns (c : Thread nD τ) scM3_0 fullShare ((outsAt R3 c (fun t => iblk3 V c 0 t) t.val t.isLt).2) ∗ Pipeline.scopedRestBut (Ix := Unit) (Name := ℕ) (U := UR sig nD τ) (Lvl := ℕ) (Val := Elt F) spec3 c [cc3_scratch0] ∗ ∃ r, prngReg c r) from rfl,
    PhiS3_castSucc V c t,
    show (dat3 V c).leavesExact 0 t = owns (c : Thread nD τ) (ms3_0 t) fullShare ((dat3 V c).after 0 t) from by
      unfold Dat.leavesExact; rw [liveAt3_0 t], after3_0]
  have hN : t.val < 10192 := lt_of_lt_of_eq t.isLt (show cfg3.N = 10192 from N_3)
  by_cases h1 : t.val % 104 = 103
  · have h0 : ¬t.val % 104 = 0 := by omega
    have hz : t.val ≠ 0 := by omega
    rw [show (dat3 V c).leavesExact 1 t = owns (c : Thread nD τ) (ms3_1 t) fullShare ((dat3 V c).after 1 t) from by
      unfold Dat.leavesExact; rw [liveAt3_1 t ((hcond1_1 t).mpr h1)], after3_1, outsAt_C R3 c t _ h0 h1, PhiS3_pos V c _ _ hz]
    unfold outsC; (try dsimp only)
    iintro ⟨⟨HS0, HR⟩, Ho, ⟨%d0, H0⟩, ⟨%d1, H1⟩⟩
    iapply ((runC R3 c t h0 h1 (iblk3 V c 0 t) _).2.2 Set.univ _)
    iframe H0 HS0
    isplitl [H1]; · iexists _; iexact H1
    iintro ⟨H0, ⟨%e1, H1⟩, ⟨%es0, HS0⟩⟩
    iframe HR Ho H0
    isplitl [HS0]
    · unfold owns; iexists _; isplitr
      swap; · iexact HS0
      ipureintro; exact View.read_writes_of_cover _ _ _ _ _ (scoverC R3 c t h0 h1 _ _)
    unfold owns; iexists _; isplitr
    swap; · iexact H1
    ipureintro; exact View.read_writes_of_cover _ _ _ _ _ (coverC R3 c t h0 h1 _ _)
  · have hi : ¬cond1_1 (grid3.coords t) := fun h => h1 ((hcond1_1 t).mp h)
    rw [Dat.leavesExact_idle (dat3 V c) 1 t (idleAt3_1 t hi) (noFlush3_1 t hi)]
    by_cases h0 : t.val % 104 = 0
    · rw [outsAt_A R3 c t _ h0 h1]
      unfold outsA; (try dsimp only)
      iintro ⟨HP, Ho, ⟨%d0, H0⟩, ⟨%d1, H1⟩⟩
      ihave ⟨HS0, HR⟩ := (PhiS3_open V c _ _) $$ HP
      iapply ((runA R3 c t h0 h1 (iblk3 V c 0 t)).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverA R3 c t h0 h1 _)
      iexists _; iexact H1
    · have hz : t.val ≠ 0 := by omega
      rw [outsAt_B R3 c t _ h0 h1, PhiS3_pos V c _ _ hz]
      unfold outsB; (try dsimp only)
      iintro ⟨⟨HS0, HR⟩, Ho, ⟨%d0, H0⟩, ⟨%d1, H1⟩⟩
      iapply ((runB R3 c t h0 h1 (iblk3 V c 0 t) _).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverB R3 c t h0 h1 _ _)
      iexists _; iexact H1

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Idealize.SL.BI.Entails.refl _

theorem hout3 (c : Dev nD) : (dat3 V c).Φ (Fin.last cfg3.N) ⊢ Pipeline.ΦA spec3 c := by
  refine BIBase.Entails.trans (PhiS3_open V c (Fin.last cfg3.N).val (Nat.le_of_lt_succ (Fin.last cfg3.N).isLt)) ?_
  rw [PhiA3_eq]
  iintro ⟨HS0, HR, Hg⟩
  isplitl [HS0 HR]
  · isplitl [HS0]; · iexact HS0
    iexact HR
  iexact Hg

end Cert.KernelIdeal.Hand

end
-- ==== Proof.KI.Mm4.lean ====
import proofs.«425610_j63256278335719_1_alg».proof.Proof.Gen.KernelIdeal.Launch
import proofs.«425610_j63256278335719_1_alg».proof.Proof.Gen.KernelIdeal.Skeleton
import proofs.«425610_j63256278335719_1_alg».proof.Proof.Gen.KernelIdeal.Points
import proofs.«425610_j63256278335719_1_alg».proof.Proof.KI.Mm0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body's product: the kernel is region 0's. -/
noncomputable def out4_2 (x0 : Vec F S512x96 .f32) (x1 : Vec F S96x96 .f32) : Vec F S512x96 .f32 :=
  View.canon [⟨r0_2, k0_pay1 (View.ld x0 r0_0) (View.ld x1 r0_1)⟩]

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

noncomputable def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel0 c Set.univ (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.Agg5.lean ====
import proofs.«425610_j63256278335719_1_alg».proof.Proof.KI.AggAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem liveAt5_0 : ∀ t : Fin cfg5.N, cfg5.idle 0 (grid5.coords t) = false := fun _ => rfl

theorem idle5_1_iff (i : grid5.Coords) : cfg5.idle 1 i = true ↔ ¬cond1_1 i := by
  have h : cfg5.idle 1 i = !(k1_cond2 i == 1#1) := rfl
  rw [h, Bool.not_eq_true', beq_eq_false_iff_ne]

theorem idleAt5_1 (t : Fin cfg5.N) (h1 : ¬cond1_1 (grid5.coords t)) : cfg5.idle 1 (grid5.coords t) = true :=
  (idle5_1_iff _).mpr h1

theorem noFlush5_1 (t : Fin cfg5.N) (h1 : ¬cond1_1 (grid5.coords t)) : (cfg5.win 1).flush t = false :=
  Bool.eq_false_iff.mpr fun hf => h1 ((hcond1_1 t).mpr ((flush5_1 t).mp hf))

theorem liveAt5_1 (t : Fin cfg5.N) (h1 : cond1_1 (grid5.coords t)) : cfg5.idle 1 (grid5.coords t) = false :=
  Bool.eq_false_iff.mpr fun hi => (idle5_1_iff _).mp hi h1

abbrev VO5_1 : View sig .tc .vmem S512x96 .f32 := (Memref.whole cc5_stg1_0 : Memref sig .tc .vmem S512x96 .f32).view

abbrev ms5_0 (t : Fin cfg5.N) : Memref sig .tc .vmem S8192x97 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x96 .f32 := win5_1.stage (cfg5.slots t 1)
abbrev hs5_1 (t : Fin cfg5.N) : (ms5_1 t).IsWhole := hstage5_1 ((cfg5.slots t 1).cast nbuf5_1)

abbrev scM5_0 : Memref sig .tc .vmem S512x96 .f32 := Memref.whole cc5_scratch0

abbrev VS5_0 : View sig .tc .vmem S512x96 .f32 := scM5_0.view

theorem PhiA5_eq (c : Dev nD) :
    (Pipeline.ΦA spec5 c : sProp 𝕄)
      = iprop(iprop(iprop((∃ d, owns (c : Thread nD τ) scM5_0 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

abbrev R5 : AccRegion := ⟨VO5_1, VS5_0, ms5_0, hs5_0, ms5_1, hs5_1, scM5_0, Memref.isWhole_whole _⟩

/-- Between points the scratch holds what the point before left. -/
noncomputable def PhiS5 (c : Dev nD) : (n : ℕ) → n ≤ cfg5.N → sProp 𝕄
  | 0, _ => Pipeline.ΦA spec5 c
  | n + 1, hn => iprop(owns (c : Thread nD τ) scM5_0 fullShare ((outsAt R5 c (fun t => iblk5 V c 0 t) n hn).2) ∗ Pipeline.scopedRestBut (Ix := Unit) (Name := ℕ) (U := UR sig nD τ) (Lvl := ℕ) (Val := Elt F) spec5 c [cc5_scratch0] ∗ ∃ r, prngReg c r)

theorem PhiS5_pos (c : Dev nD) (n : ℕ) (h : n ≤ cfg5.N) (hz : n ≠ 0) :
    PhiS5 V c n h = iprop(owns (c : Thread nD τ) scM5_0 fullShare ((outsAt R5 c (fun t => iblk5 V c 0 t) (n - 1) (Nat.lt_of_lt_of_le (Nat.sub_lt (Nat.pos_of_ne_zero hz) Nat.one_pos) h)).2) ∗ Pipeline.scopedRestBut (Ix := Unit) (Name := ℕ) (U := UR sig nD τ) (Lvl := ℕ) (Val := Elt F) spec5 c [cc5_scratch0] ∗ ∃ r, prngReg c r) := by
  cases n with
  | zero => exact absurd rfl hz
  | succ n => rfl

/-- At any position the scratch holds something. -/
theorem PhiS5_open (c : Dev nD) (n : ℕ) (h : n ≤ cfg5.N) :
    PhiS5 V c n h ⊢ iprop((∃ d, owns (c : Thread nD τ) scM5_0 fullShare d) ∗ Pipeline.scopedRestBut (Ix := Unit) (Name := ℕ) (U := UR sig nD τ) (Lvl := ℕ) (Val := Elt F) spec5 c [cc5_scratch0] ∗ ∃ r, prngReg c r) := by
  cases n with
  | zero =>
    rw [show PhiS5 V c 0 h = Pipeline.ΦA spec5 c from rfl, PhiA5_eq]
    iintro ⟨⟨HS0, HR⟩, Hg⟩
    iframe HS0 HR Hg
  | succ n =>
    rw [show PhiS5 V c (n + 1) h = iprop(owns (c : Thread nD τ) scM5_0 fullShare ((outsAt R5 c (fun t => iblk5 V c 0 t) n h).2) ∗ Pipeline.scopedRestBut (Ix := Unit) (Name := ℕ) (U := UR sig nD τ) (Lvl := ℕ) (Val := Elt F) spec5 c [cc5_scratch0] ∗ ∃ r, prngReg c r) from rfl]
    iintro ⟨HS0, HR⟩
    iframe HR
    iexists _; iexact HS0

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => (outsAt R5 c (fun t => iblk5 V c 0 t) t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = (outsAt R5 c (fun t => iblk5 V c 0 t) t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d

noncomputable def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d)))

noncomputable def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t)

set_option maxHeartbeats 4800000 in
/-- The body at any point, by the point's place in its run of 104: the scratch goes in as left and comes back as the case's sum. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).owesAt () t.succ = (dat5 V c).owesAt () t.castSucc from rfl,
    show (dat5 V c).Φ t.succ = iprop(owns (c : Thread nD τ) scM5_0 fullShare ((outsAt R5 c (fun t => iblk5 V c 0 t) t.val t.isLt).2) ∗ Pipeline.scopedRestBut (Ix := Unit) (Name := ℕ) (U := UR sig nD τ) (Lvl := ℕ) (Val := Elt F) spec5 c [cc5_scratch0] ∗ ∃ r, prngReg c r) from rfl,
    PhiS5_castSucc V c t,
    show (dat5 V c).leavesExact 0 t = owns (c : Thread nD τ) (ms5_0 t) fullShare ((dat5 V c).after 0 t) from by
      unfold Dat.leavesExact; rw [liveAt5_0 t], after5_0]
  have hN : t.val < 10192 := lt_of_lt_of_eq t.isLt (show cfg5.N = 10192 from N_5)
  by_cases h1 : t.val % 104 = 103
  · have h0 : ¬t.val % 104 = 0 := by omega
    have hz : t.val ≠ 0 := by omega
    rw [show (dat5 V c).leavesExact 1 t = owns (c : Thread nD τ) (ms5_1 t) fullShare ((dat5 V c).after 1 t) from by
      unfold Dat.leavesExact; rw [liveAt5_1 t ((hcond1_1 t).mpr h1)], after5_1, outsAt_C R5 c t _ h0 h1, PhiS5_pos V c _ _ hz]
    unfold outsC; (try dsimp only)
    iintro ⟨⟨HS0, HR⟩, Ho, ⟨%d0, H0⟩, ⟨%d1, H1⟩⟩
    iapply ((runC R5 c t h0 h1 (iblk5 V c 0 t) _).2.2 Set.univ _)
    iframe H0 HS0
    isplitl [H1]; · iexists _; iexact H1
    iintro ⟨H0, ⟨%e1, H1⟩, ⟨%es0, HS0⟩⟩
    iframe HR Ho H0
    isplitl [HS0]
    · unfold owns; iexists _; isplitr
      swap; · iexact HS0
      ipureintro; exact View.read_writes_of_cover _ _ _ _ _ (scoverC R5 c t h0 h1 _ _)
    unfold owns; iexists _; isplitr
    swap; · iexact H1
    ipureintro; exact View.read_writes_of_cover _ _ _ _ _ (coverC R5 c t h0 h1 _ _)
  · have hi : ¬cond1_1 (grid5.coords t) := fun h => h1 ((hcond1_1 t).mp h)
    rw [Dat.leavesExact_idle (dat5 V c) 1 t (idleAt5_1 t hi) (noFlush5_1 t hi)]
    by_cases h0 : t.val % 104 = 0
    · rw [outsAt_A R5 c t _ h0 h1]
      unfold outsA; (try dsimp only)
      iintro ⟨HP, Ho, ⟨%d0, H0⟩, ⟨%d1, H1⟩⟩
      ihave ⟨HS0, HR⟩ := (PhiS5_open V c _ _) $$ HP
      iapply ((runA R5 c t h0 h1 (iblk5 V c 0 t)).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverA R5 c t h0 h1 _)
      iexists _; iexact H1
    · have hz : t.val ≠ 0 := by omega
      rw [outsAt_B R5 c t _ h0 h1, PhiS5_pos V c _ _ hz]
      unfold outsB; (try dsimp only)
      iintro ⟨⟨HS0, HR⟩, Ho, ⟨%d0, H0⟩, ⟨%d1, H1⟩⟩
      iapply ((runB R5 c t h0 h1 (iblk5 V c 0 t) _).2.2 _ Set.univ _)
      iframe H0 H1 HS0
      iintro ⟨H0, H1, ⟨%es0, HS0⟩⟩
      iframe HR Ho H0
      isplitl [HS0]
      · unfold owns; iexists _; isplitr
        swap; · iexact HS0
        ipureintro; exact View.read_writes_of_cover _ _ _ _ _ (scoverB R5 c t h0 h1 _ _)
      iexists _; iexact H1

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 :=
  Idealize.SL.BI.Entails.refl _

theorem hout5 (c : Dev nD) : (dat5 V c).Φ (Fin.last cfg5.N) ⊢ Pipeline.ΦA spec5 c := by
  refine BIBase.Entails.trans (PhiS5_open V c (Fin.last cfg5.N).val (Nat.le_of_lt_succ (Fin.last cfg5.N).isLt)) ?_
  rw [PhiA5_eq]
  iintro ⟨HS0, HR, Hg⟩
  isplitl [HS0 HR]
  · isplitl [HS0]; · iexact HS0
    iexact HR
  iexact Hg

end Cert.KernelIdeal.Hand

end
-- ==== Proof.KI.Fold.lean ====
import proofs.«425610_j63256278335719_1_alg».proof.Proof.KI.Mm0
import proofs.«425610_j63256278335719_1_alg».proof.Proof.KI.Agg1
import proofs.«425610_j63256278335719_1_alg».proof.Proof.KI.Mm2
import proofs.«425610_j63256278335719_1_alg».proof.Proof.KI.Agg3
import proofs.«425610_j63256278335719_1_alg».proof.Proof.KI.Mm4
import proofs.«425610_j63256278335719_1_alg».proof.Proof.KI.Agg5
import proofs.«425610_j63256278335719_1_alg».proof.Proof.Gen.KernelIdeal.Regions
import proofs.«425610_j63256278335719_1_alg».proof.Proof.Lib.WithArrays
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec0 c (W4 m ρ c) fun w => (dat0 (V4 m ρ) c).arrAt w cfg0.N
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (Pipeline.withArrays_arr spec0 launch0.win.arr_inj c (W4 m ρ c) (fun w => (dat0 (V4 m ρ) c).arrAt w cfg0.N) w).symm

abbrev W6 : Dev nD → Valuation τ sig (Elt F) := fun c => StableHlo.after hostOps1 (W5 m ρ c)

abbrev W7 : Dev nD → Valuation τ sig (Elt F) := fun c => StableHlo.after hostOps1_1 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (Pipeline.withArrays_arr spec1 launch1.win.arr_inj c (W7 m ρ c) (fun w => (dat1 (V7 m ρ) c).arrAt w cfg1.N) w).symm

abbrev W9 : Dev nD → Valuation τ sig (Elt F) := fun c => StableHlo.after hostOps2 (W8 m ρ c)

abbrev W10 : Dev nD → Valuation τ sig (Elt F) := fun c => StableHlo.after hostOps2_1 (W9 m ρ c)

abbrev V10 : (c : Dev nD) → (b : Ref sig .tc) → Buf (Elt F) ((c : Thread nD τ).loc b) := fun c b => W10 m ρ c b

def W11 (c : Dev nD) : Valuation τ sig (Elt F) :=
  Pipeline.withArrays spec2 c (W10 m ρ c) fun w => (dat2 (V10 m ρ) c).arrAt w cfg2.N
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (Pipeline.withArrays_arr spec2 launch2.win.arr_inj c (W10 m ρ c) (fun w => (dat2 (V10 m ρ) c).arrAt w cfg2.N) w).symm

abbrev W12 : Dev nD → Valuation τ sig (Elt F) := fun c => StableHlo.after hostOps3 (W11 m ρ c)

abbrev W13 : Dev nD → Valuation τ sig (Elt F) := fun c => StableHlo.after hostOps3_1 (W12 m ρ c)

abbrev V13 : (c : Dev nD) → (b : Ref sig .tc) → Buf (Elt F) ((c : Thread nD τ).loc b) := fun c b => W13 m ρ c b

def W14 (c : Dev nD) : Valuation τ sig (Elt F) :=
  Pipeline.withArrays spec3 c (W13 m ρ c) fun w => (dat3 (V13 m ρ) c).arrAt w cfg3.N
abbrev V14 : (c : Dev nD) → (b : Ref sig .tc) → Buf (Elt F) ((c : Thread nD τ).loc b) := fun c b => W14 m ρ c b
theorem hF3 (c : Dev nD) (w : Fin cfg3.W) : (dat3 (V13 m ρ) c).arrAt w cfg3.N = V14 m ρ c (Pipeline.arrRef spec3 w) :=
  (Pipeline.withArrays_arr spec3 launch3.win.arr_inj c (W13 m ρ c) (fun w => (dat3 (V13 m ρ) c).arrAt w cfg3.N) w).symm

abbrev W15 : Dev nD → Valuation τ sig (Elt F) := fun c => StableHlo.after hostOps4 (W14 m ρ c)

abbrev W16 : Dev nD → Valuation τ sig (Elt F) := fun c => StableHlo.after hostOps4_1 (W15 m ρ c)

abbrev V16 : (c : Dev nD) → (b : Ref sig .tc) → Buf (Elt F) ((c : Thread nD τ).loc b) := fun c b => W16 m ρ c b

def W17 (c : Dev nD) : Valuation τ sig (Elt F) :=
  Pipeline.withArrays spec4 c (W16 m ρ c) fun w => (dat4 (V16 m ρ) c).arrAt w cfg4.N
abbrev V17 : (c : Dev nD) → (b : Ref sig .tc) → Buf (Elt F) ((c : Thread nD τ).loc b) := fun c b => W17 m ρ c b
theorem hF4 (c : Dev nD) (w : Fin cfg4.W) : (dat4 (V16 m ρ) c).arrAt w cfg4.N = V17 m ρ c (Pipeline.arrRef spec4 w) :=
  (Pipeline.withArrays_arr spec4 launch4.win.arr_inj c (W16 m ρ c) (fun w => (dat4 (V16 m ρ) c).arrAt w cfg4.N) w).symm

abbrev W18 : Dev nD → Valuation τ sig (Elt F) := fun c => StableHlo.after hostOps5 (W17 m ρ c)

abbrev W19 : Dev nD → Valuation τ sig (Elt F) := fun c => StableHlo.after hostOps5_1 (W18 m ρ c)

abbrev V19 : (c : Dev nD) → (b : Ref sig .tc) → Buf (Elt F) ((c : Thread nD τ).loc b) := fun c b => W19 m ρ c b

def W20 (c : Dev nD) : Valuation τ sig (Elt F) :=
  Pipeline.withArrays spec5 c (W19 m ρ c) fun w => (dat5 (V19 m ρ) c).arrAt w cfg5.N
abbrev V20 : (c : Dev nD) → (b : Ref sig .tc) → Buf (Elt F) ((c : Thread nD τ).loc b) := fun c b => W20 m ρ c b
theorem hF5 (c : Dev nD) (w : Fin cfg5.W) : (dat5 (V19 m ρ) c).arrAt w cfg5.N = V20 m ρ c (Pipeline.arrRef spec5 w) :=
  (Pipeline.withArrays_arr spec5 launch5.win.arr_inj c (W19 m ρ c) (fun w => (dat5 (V19 m ρ) c).arrAt w cfg5.N) w).symm

abbrev W21 : Dev nD → Valuation τ sig (Elt F) := fun c => StableHlo.after hostOps6 (W20 m ρ c)

abbrev V21 : (c : Dev nD) → (b : Ref sig .tc) → Buf (Elt F) ((c : Thread nD τ).loc b) := fun c b => W21 m ρ c b

/-- The contents at the 22 boundaries as one family. -/
noncomputable def Wn : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | _ => W21 m ρ

/-- What the item after boundary `k` may write. -/
noncomputable def wr : ℕ → List (Ref sig .tc)
  | 0 => hostOps0_W
  | 1 => hostOps0_1_W
  | 2 => hostOps0_2_W
  | 3 => hostOps0_3_W
  | 4 => [main_v41]
  | 5 => hostOps1_W
  | 6 => hostOps1_1_W
  | 7 => [main_v48]
  | 8 => hostOps2_W
  | 9 => hostOps2_1_W
  | 10 => [main_v53]
  | 11 => hostOps3_W
  | 12 => hostOps3_1_W
  | 13 => [main_v60]
  | 14 => hostOps4_W
  | 15 => hostOps4_1_W
  | 16 => [main_v65]
  | 17 => hostOps5_W
  | 18 => hostOps5_1_W
  | 19 => [main_v72]
  | 20 => hostOps6_W
  | _ => []

/-- An item leaves what it does not write: a host stretch by its write set, a region its input arrays and all that is no array of it. -/
theorem Wn_step (c : Dev nD) (r : Ref sig .tc) :
    ∀ k, r ∉ wr k → Wn m ρ (k + 1) c (Proc.devRef .tc r) = Wn m ρ k c (Proc.devRef .tc r)
  | 0 => StableHlo.after_of_writes_sub hostOps0 _ hostOps0_writes
  | 1 => StableHlo.after_of_writes_sub hostOps0_1 _ hostOps0_1_writes
  | 2 => StableHlo.after_of_writes_sub hostOps0_2 _ hostOps0_2_writes
  | 3 => StableHlo.after_of_writes_sub hostOps0_3 _ hostOps0_3_writes
  | 4 => Cert.Lib.withArrays_of_out (dat0 (V4 m ρ) c) launch0.win.arr_inj (W4 m ρ c) _ (by decide) (A_eq0 (V4 m ρ) c) r
  | 5 => StableHlo.after_of_writes_sub hostOps1 _ hostOps1_writes
  | 6 => StableHlo.after_of_writes_sub hostOps1_1 _ hostOps1_1_writes
  | 7 => Cert.Lib.withArrays_of_out (dat1 (V7 m ρ) c) launch1.win.arr_inj (W7 m ρ c) _ (by decide) (A_eq1 (V7 m ρ) c) r
  | 8 => StableHlo.after_of_writes_sub hostOps2 _ hostOps2_writes
  | 9 => StableHlo.after_of_writes_sub hostOps2_1 _ hostOps2_1_writes
  | 10 => Cert.Lib.withArrays_of_out (dat2 (V10 m ρ) c) launch2.win.arr_inj (W10 m ρ c) _ (by decide) (A_eq2 (V10 m ρ) c) r
  | 11 => StableHlo.after_of_writes_sub hostOps3 _ hostOps3_writes
  | 12 => StableHlo.after_of_writes_sub hostOps3_1 _ hostOps3_1_writes
  | 13 => Cert.Lib.withArrays_of_out (dat3 (V13 m ρ) c) launch3.win.arr_inj (W13 m ρ c) _ (by decide) (A_eq3 (V13 m ρ) c) r
  | 14 => StableHlo.after_of_writes_sub hostOps4 _ hostOps4_writes
  | 15 => StableHlo.after_of_writes_sub hostOps4_1 _ hostOps4_1_writes
  | 16 => Cert.Lib.withArrays_of_out (dat4 (V16 m ρ) c) launch4.win.arr_inj (W16 m ρ c) _ (by decide) (A_eq4 (V16 m ρ) c) r
  | 17 => StableHlo.after_of_writes_sub hostOps5 _ hostOps5_writes
  | 18 => StableHlo.after_of_writes_sub hostOps5_1 _ hostOps5_1_writes
  | 19 => Cert.Lib.withArrays_of_out (dat5 (V19 m ρ) c) launch5.win.arr_inj (W19 m ρ c) _ (by decide) (A_eq5 (V19 m ρ) c) r
  | 20 => StableHlo.after_of_writes_sub hostOps6 _ hostOps6_writes
  | _ + 21 => fun _ => rfl

/-- A reference no item between boundaries `i` and `j` writes holds at `j` what it held at `i`: step by step. -/
theorem keep (c : Dev nD) (r : Ref sig .tc) {i j : ℕ} (hij : i ≤ j) (h : ∀ k < j, i ≤ k → r ∉ wr k) :
    Wn m ρ j c (Proc.devRef .tc r) = Wn m ρ i c (Proc.devRef .tc r) := by
  induction j, hij using Nat.le_induction with
  | base => rfl
  | succ j hij ih =>
    exact (Wn_step m ρ c r j (h j j.lt_succ_self hij)).trans (ih fun k hk => h k (hk.trans j.lt_succ_self))

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
  | ⟨2, _⟩ => fun c => dat2 (V10 m ρ) c
  | ⟨3, _⟩ => fun c => dat3 (V13 m ρ) c
  | ⟨4, _⟩ => fun c => dat4 (V16 m ρ) c
  | ⟨5, _⟩ => fun c => dat5 (V19 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W21 m ρ c) ∗ ∃ r, prngReg c r)

end Cert.KernelIdeal.Hand

end
-- ==== Proof.KI.RegSeg.lean ====
import proofs.«425610_j63256278335719_1_alg».proof.Proof.KI.Fold
import proofs.«425610_j63256278335719_1_alg».proof.Proof.Lib.RegSeg

noncomputable section

namespace Cert.KernelIdeal.Hand

open Cert.KernelIdeal Cert.KernelIdeal.Gen
open Idealize.ShloMosaic Idealize.SL.BI

variable {F : FTy → Type} [FloatOps F] (m : (ℓ : Loc nD τ sig) → Buf (Elt F) ℓ) (ρ : Dev nD → PrngReg)

def reg0 : Pipeline.RegionSeg (pcfgs (F := F)) adm (pdats m ρ) () defs₀ 𝒱₀ L lv 0 :=
  Lib.regSeg launch0 (body_obligation0 (V4 m ρ)) (fun _ _ => rfl) (fun _ _ => rfl) (fun _ => rfl) (W4 m ρ) (fun _ _ => rfl)
    (fun _ => .rfl) fun _ => .rfl

def reg1 : Pipeline.RegionSeg (pcfgs (F := F)) adm (pdats m ρ) () defs₀ 𝒱₀ L lv 1 :=
  Lib.regSeg launch1 (body_obligation1 (V7 m ρ)) (fun _ _ => rfl) (fun _ _ => rfl) (fun _ => rfl) (W7 m ρ) (fun _ _ => rfl)
    (hin1 (V7 m ρ)) (hout1 (V7 m ρ))

def reg2 : Pipeline.RegionSeg (pcfgs (F := F)) adm (pdats m ρ) () defs₀ 𝒱₀ L lv 2 :=
  Lib.regSeg launch2 (body_obligation2 (V10 m ρ)) (fun _ _ => rfl) (fun _ _ => rfl) (fun _ => rfl) (W10 m ρ) (fun _ _ => rfl)
    (fun _ => .rfl) fun _ => .rfl

def reg3 : Pipeline.RegionSeg (pcfgs (F := F)) adm (pdats m ρ) () defs₀ 𝒱₀ L lv 3 :=
  Lib.regSeg launch3 (body_obligation3 (V13 m ρ)) (fun _ _ => rfl) (fun _ _ => rfl) (fun _ => rfl) (W13 m ρ) (fun _ _ => rfl)
    (hin3 (V13 m ρ)) (hout3 (V13 m ρ))

def reg4 : Pipeline.RegionSeg (pcfgs (F := F)) adm (pdats m ρ) () defs₀ 𝒱₀ L lv 4 :=
  Lib.regSeg launch4 (body_obligation4 (V16 m ρ)) (fun _ _ => rfl) (fun _ _ => rfl) (fun _ => rfl) (W16 m ρ) (fun _ _ => rfl)
    (fun _ => .rfl) fun _ => .rfl

def reg5 : Pipeline.RegionSeg (pcfgs (F := F)) adm (pdats m ρ) () defs₀ 𝒱₀ L lv 5 :=
  Lib.regSeg launch5 (body_obligation5 (V19 m ρ)) (fun _ _ => rfl) (fun _ _ => rfl) (fun _ => rfl) (W19 m ρ) (fun _ _ => rfl)
    (hin5 (V19 m ρ)) (hout5 (V19 m ρ))

end Cert.KernelIdeal.Hand

end
-- ==== Proof.KI.Run.lean ====
import proofs.«425610_j63256278335719_1_alg».proof.Proof.KI.RegSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .region (reg1 m ρ),
    .host (hseg hostOps2 hostOps2_sub hostOps2_fresh (W8 m ρ)),
    .host (hseg hostOps2_1 hostOps2_1_sub hostOps2_1_fresh (W9 m ρ)),
    .region (reg2 m ρ),
    .host (hseg hostOps3 hostOps3_sub hostOps3_fresh (W11 m ρ)),
    .host (hseg hostOps3_1 hostOps3_1_sub hostOps3_1_fresh (W12 m ρ)),
    .region (reg3 m ρ),
    .host (hseg hostOps4 hostOps4_sub hostOps4_fresh (W14 m ρ)),
    .host (hseg hostOps4_1 hostOps4_1_sub hostOps4_1_fresh (W15 m ρ)),
    .region (reg4 m ρ),
    .host (hseg hostOps5 hostOps5_sub hostOps5_fresh (W17 m ρ)),
    .host (hseg hostOps5_1 hostOps5_1_sub hostOps5_1_fresh (W18 m ρ)),
    .region (reg5 m ρ),
    .host (hseg hostOps6 hostOps6_sub hostOps6_fresh (W20 m ρ)) ]

theorem main_run (c : Dev nD) : main (F := F) c = Pipeline.Seg.run (segs m ρ) := by
  rw [main_chain c, Pipeline.Seg.run_eq_chain]
  exact congrArg Pipeline.chain (show _ = (segs m ρ).map Pipeline.Seg.prog from rfl)

theorem last_post (c : Dev nD) :
    (iprop(StableHlo.held (c : Thread nD τ) (Pipeline.ucRefs τ sig) (W21 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, last_post m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

theorem run_result : θ_run defs (onTc (τ := τ) (main (F := F))) ⟨m, fun _ => 0, ρ⟩ (fun r => ∀ c : Dev nD,
      r.2.mem ((c.tc : Thread nD τ).loc main_v92) = W21 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have k : ∀ a : Ref sig .tc, ¬(Proc.devRef .tc a : DevRef τ sig).isScoped → (∀ k < 21, 0 ≤ k → a ∉ wr k) →
        r.2.mem ((c.tc : Thread nD τ).loc a) = m ((c.tc : Thread nD τ).loc a) :=
      fun a hu hw => (h c _ (mem_uc a hu)).trans (keep m ρ c a (Nat.zero_le 21) hw)
    ⟨h c _ (mem_uc main_v92 (by decide)),
      k main_arg0 (by decide) (by decide),
      k main_arg1 (by decide) (by decide),
      k main_arg2 (by decide) (by decide),
      k main_arg3 (by decide) (by decide),
      k main_arg4 (by decide) (by decide),
      k main_arg5 (by decide) (by decide),
      k main_arg6 (by decide) (by decide),
      k main_arg7 (by decide) (by decide),
      k main_arg8 (by decide) (by decide),
      k main_arg9 (by decide) (by decide),
      k main_arg10 (by decide) (by decide),
      k main_arg11 (by decide) (by decide)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.KernelIdeal.Hand

end
-- ==== Proof.Ref.RefRun.lean ====
import proofs.«425610_j63256278335719_1_alg».proof.Proof.Gen.ReferenceIdeal.Run
import proofs.«425610_j63256278335719_1_alg».proof.Proof.Gen.ReferenceIdeal.Read
-- ==== Proof.Val.KFun.lean ====
import proofs.«425610_j63256278335719_1_alg».proof.Proof.Gen.KernelIdeal.Launch
import proofs.«425610_j63256278335719_1_alg».proof.Proof.Ref.RefRun

noncomputable section

namespace Cert.KernelIdeal.Val

open Cert.KernelIdeal Cert.KernelIdeal.Gen
open Idealize.ShloMosaic Idealize.SL.Sem

variable {F : FTy → Type} [FloatOps F]

def padSrc (a : (⟨S850000, .i32⟩ : BufTy).Contents (Elt F)) : (⟨S851968, .i32⟩ : BufTy).Contents (Elt F) :=
  concatenate S851968 0 [⟨S850000, a⟩, ⟨S1968, broadcastInDim S1968 ![] bcast_S_S1968 (constantI S_ 32 0#32 : (⟨S_, .i32⟩ : BufTy).Contents (Elt F))⟩] concatenates_S850000_S1968_S851968_d0

def padDst (a : (⟨S850000, .i32⟩ : BufTy).Contents (Elt F)) : (⟨S851968, .i32⟩ : BufTy).Contents (Elt F) :=
  concatenate S851968 0 [⟨S850000, a⟩, ⟨S1968, broadcastInDim S1968 ![] bcast_S_S1968 (constantI S_ 32 50176#32 : (⟨S_, .i32⟩ : BufTy).Contents (Elt F))⟩] concatenates_S850000_S1968_S851968_d0

def padNorm (a : (⟨S850000, .f32⟩ : BufTy).Contents (Elt F)) : (⟨S851968, .f32⟩ : BufTy).Contents (Elt F) :=
  concatenate S851968 0 [⟨S850000, a⟩, ⟨S1968, broadcastInDim S1968 ![] bcast_S_S1968 (constant S_ .f32 0x00000000#32 : (⟨S_, .f32⟩ : BufTy).Contents (Elt F))⟩] concatenates_S850000_S1968_S851968_d0

def srcP (x10 : (⟨S2x800000, .i32⟩ : BufTy).Contents (Elt F)) : (⟨S851968, .i32⟩ : BufTy).Contents (Elt F) :=
  padSrc (Cert.ReferenceIdeal.Read.val_main_v7 (F := F) x10)

def dstP (x10 : (⟨S2x800000, .i32⟩ : BufTy).Contents (Elt F)) : (⟨S851968, .i32⟩ : BufTy).Contents (Elt F) :=
  padDst (Cert.ReferenceIdeal.Read.val_main_v8 (F := F) x10)

def dstF (x10 : (⟨S2x800000, .i32⟩ : BufTy).Contents (Elt F)) : (⟨S851968, .f32⟩ : BufTy).Contents (Elt F) :=
  sitofp .f32 (dstP (F := F) x10)

def normP (x1 : (⟨S800000x1, .f32⟩ : BufTy).Contents (Elt F)) (x10 : (⟨S2x800000, .i32⟩ : BufTy).Contents (Elt F)) :
    (⟨S851968, .f32⟩ : BufTy).Contents (Elt F) :=
  padNorm (Cert.ReferenceIdeal.Read.val_main_v33 (F := F) x1 x10)

def padFn (x0 : (⟨S50000x96, .f32⟩ : BufTy).Contents (Elt F)) : (⟨S50176x96, .f32⟩ : BufTy).Contents (Elt F) :=
  pad S50176x96 ![0, 0] ![176, 0] ![0, 0] x0
    (sitofp .f32 (constantI S_ 32 0#32 : (⟨S_, .i32⟩ : BufTy).Contents (Elt F)) : (⟨S_, .f32⟩ : BufTy).Contents (Elt F))
    pads_S50000x96_S50176x96_01760_000 h_S_

def takeIdx (sp : (⟨S851968, .i32⟩ : BufTy).Contents (Elt F)) : (⟨S851968x1, .i32⟩ : BufTy).Contents (Elt F) :=
  broadcastInDim S851968x1 ![0] bcast_S851968_S851968x1_0
    (select (cmpi .slt sp (broadcastInDim S851968 ![] bcast_S_S851968 (constantI S_ 32 0#32 : (⟨S_, .i32⟩ : BufTy).Contents (Elt F))))
      (addi sp (broadcastInDim S851968 ![] bcast_S_S851968 (constantI S_ 32 50176#32 : (⟨S_, .i32⟩ : BufTy).Contents (Elt F)))) sp)

def takeMask (sp : (⟨S851968, .i32⟩ : BufTy).Contents (Elt F)) : (⟨S851968, .i1⟩ : BufTy).Contents (Elt F) :=
  Host.reduce IntOp.andi
    (andi
      (cmpi .sge (takeIdx (F := F) sp) (broadcastInDim S851968x1 ![] bcast_S_S851968x1 (constantI S_ 32 0#32 : (⟨S_, .i32⟩ : BufTy).Contents (Elt F))))
      (cmpi .sle (takeIdx (F := F) sp) (broadcastInDim S851968x1 ![0, 1] bcast_S1x1_S851968x1_0_1
        (broadcastInDim S1x1 ![1] bcast_S1_S1x1_1 (constantI S1 32 50175#32 : (⟨S1, .i32⟩ : BufTy).Contents (Elt F))))))
    (constantI S_ 1 1#1 : (⟨S_, .i1⟩ : BufTy).Contents (Elt F)) reducesTo_S851968x1_S851968_d1 h_S_

def takeFn (xw : (⟨S50176x96, .f32⟩ : BufTy).Contents (Elt F)) (sp : (⟨S851968, .i32⟩ : BufTy).Contents (Elt F)) :
    (⟨S851968x96, .f32⟩ : BufTy).Contents (Elt F) :=
  select (broadcastInDim S851968x96 ![0] bcast_S851968_S851968x96_0 (takeMask (F := F) sp))
    (Host.gather gather_S50176x96_S851968x1_S851968x96_1_0_n_n_0_1_196 xw (takeIdx (F := F) sp))
    (broadcastInDim S851968x96 ![] bcast_S_S851968x96 (constant S_ .f32 0x7FC00000#32 : (⟨S_, .f32⟩ : BufTy).Contents (Elt F)))

def payloadFn (xw : (⟨S50176x96, .f32⟩ : BufTy).Contents (Elt F)) (sp : (⟨S851968, .i32⟩ : BufTy).Contents (Elt F))
    (np df : (⟨S851968, .f32⟩ : BufTy).Contents (Elt F)) : (⟨S851968x97, .f32⟩ : BufTy).Contents (Elt F) :=
  concatenate S851968x97 1
    [⟨S851968x96, mulf (takeFn xw sp)
        (broadcastInDim S851968x96 ![0, 1] bcast_S851968x1_S851968x96_0_1 (broadcastInDim S851968x1 ![0] bcast_S851968_S851968x1_0 np))⟩,
     ⟨S851968x1, broadcastInDim S851968x1 ![0] bcast_S851968_S851968x1_0 df⟩]
    concatenates_S851968x96_S851968x1_S851968x97_d1

def postFn (g : (⟨S50176x96, .f32⟩ : BufTy).Contents (Elt F)) (b : (⟨S96, .f32⟩ : BufTy).Contents (Elt F)) :
    (⟨S50176x96, .f32⟩ : BufTy).Contents (Elt F) :=
  maximumf
    (addf g (broadcastInDim S50176x96 ![0, 1] bcast_S1x96_S50176x96_0_1 (broadcastInDim S1x96 ![1] bcast_S96_S1x96_1 b)))
    (broadcastInDim S50176x96 ![] bcast_S_S50176x96 (constant S_ .f32 0x00000000#32 : (⟨S_, .f32⟩ : BufTy).Contents (Elt F)))

def tailFn (g : (⟨S50176x96, .f32⟩ : BufTy).Contents (Elt F)) (b : (⟨S96, .f32⟩ : BufTy).Contents (Elt F)) :
    (⟨S50000x96, .f32⟩ : BufTy).Contents (Elt F) :=
  extractStridedSlice S50000x96 ![0, 0]
    (addf g (broadcastInDim S50176x96 ![0, 1] bcast_S1x96_S50176x96_0_1 (broadcastInDim S1x96 ![1] bcast_S96_S1x96_1 b)))
    slices_S50176x96_S50000x96_0_0

def poolFn (h : (⟨S50000x96, .f32⟩ : BufTy).Contents (Elt F)) (x11 : (⟨S50000, .i32⟩ : BufTy).Contents (Elt F))
    (x8 : (⟨S96x10, .f32⟩ : BufTy).Contents (Elt F)) (x9 : (⟨S10, .f32⟩ : BufTy).Contents (Elt F)) :
    (⟨S512x10, .f32⟩ : BufTy).Contents (Elt F) :=
  addf
    (Host.dotGeneral dot_S512x96_S96x10_S512x10_1_0_0_1_n_n none
      (Host.divf
        (Host.scatterAdd scatter_S512x96_S50000x1_S50000x96_1_0_0_1
          (broadcastInDim S512x96 ![] bcast_S_S512x96 (constant S_ .f32 0x00000000#32 : (⟨S_, .f32⟩ : BufTy).Contents (Elt F)))
          (broadcastInDim S50000x1 ![0] bcast_S50000_S50000x1_0 x11) h)
        (broadcastInDim S512x96 ![0, 1] bcast_S512x1_S512x96_0_1
          (broadcastInDim S512x1 ![0] bcast_S512_S512x1_0
            (maximumf
              (Host.scatterAdd scatter_S512_S50000x1_S50000_n_0_0_1
                (broadcastInDim S512 ![] bcast_S_S512 (constant S_ .f32 0x00000000#32 : (⟨S_, .f32⟩ : BufTy).Contents (Elt F)))
                (broadcastInDim S50000x1 ![0] bcast_S50000_S50000x1_0 x11)
                (broadcastInDim S50000 ![] bcast_S_S50000 (constant S_ .f32 0x3F800000#32 : (⟨S_, .f32⟩ : BufTy).Contents (Elt F))))
              (broadcastInDim S512 ![] bcast_S_S512 (constant S_ .f32 0x3F800000#32 : (⟨S_, .f32⟩ : BufTy).Contents (Elt F)))))))
      x8)
    (broadcastInDim S512x10 ![0, 1] bcast_S1x10_S512x10_0_1 (broadcastInDim S1x10 ![1] bcast_S10_S1x10_1 x9))

end Cert.KernelIdeal.Val

end
-- ==== Proof.Val.KTake.lean ====
import proofs.«425610_j63256278335719_1_alg».proof.Proof.Val.KFun
import Idealize.ShloMosaic.Lib.StableHlo.Run

noncomputable section

namespace Cert.KernelIdeal.Val

open Cert.KernelIdeal Cert.KernelIdeal.Gen
open Idealize.ShloMosaic Idealize.SL.Sem
open Idealize.ShloMosaic.StableHlo

variable {F : FTy → Type} [FloatOps F]

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

theorem take1_tail (W : Valuation τ sig (Elt F)) :
    StableHlo.after ((hostOps1 (F := F)).drop 18) W (Proc.devRef .tc main_v42)
      = select (broadcastInDim S851968x96 ![0] bcast_S851968_S851968x96_0 (W (Proc.devRef .tc main_call2_v12)))
          (Host.gather gather_S50176x96_S851968x1_S851968x96_1_0_n_n_0_1_196 (W (Proc.devRef .tc main_v41)) (W (Proc.devRef .tc main_call2_v5)))
          (broadcastInDim S851968x96 ![] bcast_S_S851968x96 (constant S_ .f32 0x7FC00000#32 : (⟨S_, .f32⟩ : BufTy).Contents (Elt F))) := by
  simp only [hostOps1, List.drop]
  after_results
  all_goals (first | (refine (eq_of_heq (cast_heq _ _)).trans ?_; rfl) | rfl)

theorem take1_mid (W : Valuation τ sig (Elt F)) :
    StableHlo.after (((hostOps1 (F := F)).take 18).drop 8) W (Proc.devRef .tc main_call2_v12)
      = Host.reduce IntOp.andi
          (andi
            (cmpi .sge (W (Proc.devRef .tc main_call2_v5)) (broadcastInDim S851968x1 ![] bcast_S_S851968x1 (constantI S_ 32 0#32 : (⟨S_, .i32⟩ : BufTy).Contents (Elt F))))
            (cmpi .sle (W (Proc.devRef .tc main_call2_v5)) (broadcastInDim S851968x1 ![0, 1] bcast_S1x1_S851968x1_0_1
              (broadcastInDim S1x1 ![1] bcast_S1_S1x1_1 (constantI S1 32 50175#32 : (⟨S1, .i32⟩ : BufTy).Contents (Elt F))))))
          (constantI S_ 1 1#1 : (⟨S_, .i1⟩ : BufTy).Contents (Elt F)) reducesTo_S851968x1_S851968_d1 h_S_ := by
  simp only [hostOps1, List.take, List.drop]
  after_results
  all_goals (first | (refine (eq_of_heq (cast_heq _ _)).trans ?_; rfl) | rfl)

theorem take1_mid_idx (W : Valuation τ sig (Elt F)) :
    StableHlo.after (((hostOps1 (F := F)).take 18).drop 8) W (Proc.devRef .tc main_call2_v5) = W (Proc.devRef .tc main_call2_v5) := by
  simp only [hostOps1, List.take, List.drop]
  after_results
  all_goals (first | (refine (eq_of_heq (cast_heq _ _)).trans ?_; rfl) | rfl)

theorem take1_mid_tab (W : Valuation τ sig (Elt F)) :
    StableHlo.after (((hostOps1 (F := F)).take 18).drop 8) W (Proc.devRef .tc main_v41) = W (Proc.devRef .tc main_v41) := by
  simp only [hostOps1, List.take, List.drop]
  after_results
  all_goals (first | (refine (eq_of_heq (cast_heq _ _)).trans ?_; rfl) | rfl)

theorem take1_head (V : Valuation τ sig (Elt F)) :
    StableHlo.after (((hostOps1 (F := F)).take 18).take 8) V (Proc.devRef .tc main_call2_v5) = takeIdx (F := F) (V (Proc.devRef .tc main_v34)) := by
  simp only [hostOps1, List.take]
  after_results
  all_goals (first | (refine (eq_of_heq (cast_heq _ _)).trans ?_; rfl) | rfl)

theorem take1_head_tab (V : Valuation τ sig (Elt F)) :
    StableHlo.after (((hostOps1 (F := F)).take 18).take 8) V (Proc.devRef .tc main_v41) = V (Proc.devRef .tc main_v41) := by
  simp only [hostOps1, List.take]
  after_results
  all_goals (first | (refine (eq_of_heq (cast_heq _ _)).trans ?_; rfl) | rfl)

theorem take1_eq (V : Valuation τ sig (Elt F)) :
    StableHlo.after (hostOps1 (F := F)) V (Proc.devRef .tc main_v42)
      = takeFn (F := F) (V (Proc.devRef .tc main_v41)) (V (Proc.devRef .tc main_v34)) := by
  rw [← List.take_append_drop 18 (hostOps1 (F := F)), after_append, take1_tail,
    ← List.take_append_drop 8 ((hostOps1 (F := F)).take 18), after_append, take1_mid, take1_mid_idx, take1_mid_tab,
    take1_head, take1_head_tab]
  rfl

theorem take3_tail (W : Valuation τ sig (Elt F)) :
    StableHlo.after ((hostOps3 (F := F)).drop 18) W (Proc.devRef .tc main_v54)
      = select (broadcastInDim S851968x96 ![0] bcast_S851968_S851968x96_0 (W (Proc.devRef .tc main_call4_v12)))
          (Host.gather gather_S50176x96_S851968x1_S851968x96_1_0_n_n_0_1_196 (W (Proc.devRef .tc main_v53)) (W (Proc.devRef .tc main_call4_v5)))
          (broadcastInDim S851968x96 ![] bcast_S_S851968x96 (constant S_ .f32 0x7FC00000#32 : (⟨S_, .f32⟩ : BufTy).Contents (Elt F))) := by
  simp only [hostOps3, List.drop]
  after_results
  all_goals (first | (refine (eq_of_heq (cast_heq _ _)).trans ?_; rfl) | rfl)

theorem take3_mid (W : Valuation τ sig (Elt F)) :
    StableHlo.after (((hostOps3 (F := F)).take 18).drop 8) W (Proc.devRef .tc main_call4_v12)
      = Host.reduce IntOp.andi
          (andi
            (cmpi .sge (W (Proc.devRef .tc main_call4_v5)) (broadcastInDim S851968x1 ![] bcast_S_S851968x1 (constantI S_ 32 0#32 : (⟨S_, .i32⟩ : BufTy).Contents (Elt F))))
            (cmpi .sle (W (Proc.devRef .tc main_call4_v5)) (broadcastInDim S851968x1 ![0, 1] bcast_S1x1_S851968x1_0_1
              (broadcastInDim S1x1 ![1] bcast_S1_S1x1_1 (constantI S1 32 50175#32 : (⟨S1, .i32⟩ : BufTy).Contents (Elt F))))))
          (constantI S_ 1 1#1 : (⟨S_, .i1⟩ : BufTy).Contents (Elt F)) reducesTo_S851968x1_S851968_d1 h_S_ := by
  simp only [hostOps3, List.take, List.drop]
  after_results
  all_goals (first | (refine (eq_of_heq (cast_heq _ _)).trans ?_; rfl) | rfl)

theorem take3_mid_idx (W : Valuation τ sig (Elt F)) :
    StableHlo.after (((hostOps3 (F := F)).take 18).drop 8) W (Proc.devRef .tc main_call4_v5) = W (Proc.devRef .tc main_call4_v5) := by
  simp only [hostOps3, List.take, List.drop]
  after_results
  all_goals (first | (refine (eq_of_heq (cast_heq _ _)).trans ?_; rfl) | rfl)

theorem take3_mid_tab (W : Valuation τ sig (Elt F)) :
    StableHlo.after (((hostOps3 (F := F)).take 18).drop 8) W (Proc.devRef .tc main_v53) = W (Proc.devRef .tc main_v53) := by
  simp only [hostOps3, List.take, List.drop]
  after_results
  all_goals (first | (refine (eq_of_heq (cast_heq _ _)).trans ?_; rfl) | rfl)

theorem take3_head (V : Valuation τ sig (Elt F)) :
    StableHlo.after (((hostOps3 (F := F)).take 18).take 8) V (Proc.devRef .tc main_call4_v5) = takeIdx (F := F) (V (Proc.devRef .tc main_v34)) := by
  simp only [hostOps3, List.take]
  after_results
  all_goals (first | (refine (eq_of_heq (cast_heq _ _)).trans ?_; rfl) | rfl)

theorem take3_head_tab (V : Valuation τ sig (Elt F)) :
    StableHlo.after (((hostOps3 (F := F)).take 18).take 8) V (Proc.devRef .tc main_v53) = V (Proc.devRef .tc main_v53) := by
  simp only [hostOps3, List.take]
  after_results
  all_goals (first | (refine (eq_of_heq (cast_heq _ _)).trans ?_; rfl) | rfl)

theorem take3_eq (V : Valuation τ sig (Elt F)) :
    StableHlo.after (hostOps3 (F := F)) V (Proc.devRef .tc main_v54)
      = takeFn (F := F) (V (Proc.devRef .tc main_v53)) (V (Proc.devRef .tc main_v34)) := by
  rw [← List.take_append_drop 18 (hostOps3 (F := F)), after_append, take3_tail,
    ← List.take_append_drop 8 ((hostOps3 (F := F)).take 18), after_append, take3_mid, take3_mid_idx, take3_mid_tab,
    take3_head, take3_head_tab]
  rfl

theorem take5_tail (W : Valuation τ sig (Elt F)) :
    StableHlo.after ((hostOps5 (F := F)).drop 18) W (Proc.devRef .tc main_v66)
      = select (broadcastInDim S851968x96 ![0] bcast_S851968_S851968x96_0 (W (Proc.devRef .tc main_call6_v12)))
          (Host.gather gather_S50176x96_S851968x1_S851968x96_1_0_n_n_0_1_196 (W (Proc.devRef .tc main_v65)) (W (Proc.devRef .tc main_call6_v5)))
          (broadcastInDim S851968x96 ![] bcast_S_S851968x96 (constant S_ .f32 0x7FC00000#32 : (⟨S_, .f32⟩ : BufTy).Contents (Elt F))) := by
  simp only [hostOps5, List.drop]
  after_results
  all_goals (first | (refine (eq_of_heq (cast_heq _ _)).trans ?_; rfl) | rfl)

theorem take5_mid (W : Valuation τ sig (Elt F)) :
    StableHlo.after (((hostOps5 (F := F)).take 18).drop 8) W (Proc.devRef .tc main_call6_v12)
      = Host.reduce IntOp.andi
          (andi
            (cmpi .sge (W (Proc.devRef .tc main_call6_v5)) (broadcastInDim S851968x1 ![] bcast_S_S851968x1 (constantI S_ 32 0#32 : (⟨S_, .i32⟩ : BufTy).Contents (Elt F))))
            (cmpi .sle (W (Proc.devRef .tc main_call6_v5)) (broadcastInDim S851968x1 ![0, 1] bcast_S1x1_S851968x1_0_1
              (broadcastInDim S1x1 ![1] bcast_S1_S1x1_1 (constantI S1 32 50175#32 : (⟨S1, .i32⟩ : BufTy).Contents (Elt F))))))
          (constantI S_ 1 1#1 : (⟨S_, .i1⟩ : BufTy).Contents (Elt F)) reducesTo_S851968x1_S851968_d1 h_S_ := by
  simp only [hostOps5, List.take, List.drop]
  after_results
  all_goals (first | (refine (eq_of_heq (cast_heq _ _)).trans ?_; rfl) | rfl)

theorem take5_mid_idx (W : Valuation τ sig (Elt F)) :
    StableHlo.after (((hostOps5 (F := F)).take 18).drop 8) W (Proc.devRef .tc main_call6_v5) = W (Proc.devRef .tc main_call6_v5) := by
  simp only [hostOps5, List.take, List.drop]
  after_results
  all_goals (first | (refine (eq_of_heq (cast_heq _ _)).trans ?_; rfl) | rfl)

theorem take5_mid_tab (W : Valuation τ sig (Elt F)) :
    StableHlo.after (((hostOps5 (F := F)).take 18).drop 8) W (Proc.devRef .tc main_v65) = W (Proc.devRef .tc main_v65) := by
  simp only [hostOps5, List.take, List.drop]
  after_results
  all_goals (first | (refine (eq_of_heq (cast_heq _ _)).trans ?_; rfl) | rfl)

theorem take5_head (V : Valuation τ sig (Elt F)) :
    StableHlo.after (((hostOps5 (F := F)).take 18).take 8) V (Proc.devRef .tc main_call6_v5) = takeIdx (F := F) (V (Proc.devRef .tc main_v34)) := by
  simp only [hostOps5, List.take]
  after_results
  all_goals (first | (refine (eq_of_heq (cast_heq _ _)).trans ?_; rfl) | rfl)

theorem take5_head_tab (V : Valuation τ sig (Elt F)) :
    StableHlo.after (((hostOps5 (F := F)).take 18).take 8) V (Proc.devRef .tc main_v65) = V (Proc.devRef .tc main_v65) := by
  simp only [hostOps5, List.take]
  after_results
  all_goals (first | (refine (eq_of_heq (cast_heq _ _)).trans ?_; rfl) | rfl)

theorem take5_eq (V : Valuation τ sig (Elt F)) :
    StableHlo.after (hostOps5 (F := F)) V (Proc.devRef .tc main_v66)
      = takeFn (F := F) (V (Proc.devRef .tc main_v65)) (V (Proc.devRef .tc main_v34)) := by
  rw [← List.take_append_drop 18 (hostOps5 (F := F)), after_append, take5_tail,
    ← List.take_append_drop 8 ((hostOps5 (F := F)).take 18), after_append, take5_mid, take5_mid_idx, take5_mid_tab,
    take5_head, take5_head_tab]
  rfl

end Cert.KernelIdeal.Val

end
-- ==== Proof.Val.KFold.lean ====
import proofs.«425610_j63256278335719_1_alg».proof.Proof.KI.Fold
import proofs.«425610_j63256278335719_1_alg».proof.Proof.Val.KFun
import proofs.«425610_j63256278335719_1_alg».proof.Proof.Val.KTake

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

section Steps

theorem hostOps0_src (V : Valuation τ sig (Elt F)) :
    after (hostOps0 (F := F)) V (Proc.devRef .tc main_v6) = Cert.ReferenceIdeal.Read.val_main_v7 (F := F) (V (Proc.devRef .tc main_arg10)) := by
  simp only [hostOps0]; after_results; rfl

theorem hostOps0_dst (V : Valuation τ sig (Elt F)) :
    after (hostOps0 (F := F)) V (Proc.devRef .tc main_v7) = Cert.ReferenceIdeal.Read.val_main_v8 (F := F) (V (Proc.devRef .tc main_arg10)) := by
  simp only [hostOps0]; after_results; rfl

theorem hostOps0_wgt (V : Valuation τ sig (Elt F)) :
    after (hostOps0 (F := F)) V (Proc.devRef .tc main_v9) = Cert.ReferenceIdeal.Read.val_main_v10 (F := F) (V (Proc.devRef .tc main_arg1)) := by
  simp only [hostOps0]; after_results; rfl

theorem hostOps0_pos (V : Valuation τ sig (Elt F)) :
    after (hostOps0 (F := F)) V (Proc.devRef .tc main_v14) = Cert.ReferenceIdeal.Read.val_main_v15 (F := F) (V (Proc.devRef .tc main_arg1)) (V (Proc.devRef .tc main_arg10)) := by
  simp only [hostOps0]; after_results; rfl

theorem hostOps0_rsq (V : Valuation τ sig (Elt F)) :
    after (hostOps0 (F := F)) V (Proc.devRef .tc main_v15) = Cert.ReferenceIdeal.Read.val_main_v16 (F := F) (V (Proc.devRef .tc main_arg1)) (V (Proc.devRef .tc main_arg10)) := by
  simp only [hostOps0]; after_results; rfl

theorem hostOps0_zero (V : Valuation τ sig (Elt F)) :
    after (hostOps0 (F := F)) V (Proc.devRef .tc main_cst_2) = Cert.ReferenceIdeal.Read.val_main_cst_2 (F := F) := by
  simp only [hostOps0]; after_results; rfl

theorem hostOps0_1_out (V : Valuation τ sig (Elt F)) :
    after (hostOps0_1 (F := F)) V (Proc.devRef .tc main_v16)
      = select (V (Proc.devRef .tc main_v14)) (V (Proc.devRef .tc main_v15)) (broadcastInDim S50000 ![] bcast_S_S50000 (V (Proc.devRef .tc main_cst_2))) := by
  simp only [hostOps0_1]; after_results; rfl

noncomputable def wrapIdx (a : (⟨S850000, .i32⟩ : BufTy).Contents (Elt F)) : (⟨S850000x1, .i32⟩ : BufTy).Contents (Elt F) :=
  broadcastInDim S850000x1 ![0] bcast_S850000_S850000x1_0
    (select (cmpi .slt a (broadcastInDim S850000 ![] bcast_S_S850000 (constantI S_ 32 0#32 : (⟨S_, .i32⟩ : BufTy).Contents (Elt F))))
      (addi a (broadcastInDim S850000 ![] bcast_S_S850000 (constantI S_ 32 50000#32 : (⟨S_, .i32⟩ : BufTy).Contents (Elt F)))) a)

noncomputable def coefOf (g : (⟨S50000, .f32⟩ : BufTy).Contents (Elt F)) (w : (⟨S850000, .f32⟩ : BufTy).Contents (Elt F))
    (s t : (⟨S850000, .i32⟩ : BufTy).Contents (Elt F)) : (⟨S850000, .f32⟩ : BufTy).Contents (Elt F) :=
  mulf (mulf (Host.gather gather_S50000_S850000x1_S850000_n_0_n_n_0_1_1 g (wrapIdx s)) w)
    (Host.gather gather_S50000_S850000x1_S850000_n_0_n_n_0_1_1 g (wrapIdx t))

theorem coefOf_ref (x1 : (⟨S800000x1, .f32⟩ : BufTy).Contents (Elt F)) (x10 : (⟨S2x800000, .i32⟩ : BufTy).Contents (Elt F)) :
    coefOf (Cert.ReferenceIdeal.Read.val_main_v17 (F := F) x1 x10) (Cert.ReferenceIdeal.Read.val_main_v10 (F := F) x1) (Cert.ReferenceIdeal.Read.val_main_v7 (F := F) x10) (Cert.ReferenceIdeal.Read.val_main_v8 (F := F) x10)
      = Cert.ReferenceIdeal.Read.val_main_v33 (F := F) x1 x10 := rfl

theorem hostOps0_2_src (V : Valuation τ sig (Elt F)) :
    after (hostOps0_2 (F := F)) V (Proc.devRef .tc main_v34) = padSrc (V (Proc.devRef .tc main_v6)) := by
  simp only [hostOps0_2]; after_results; rfl

set_option maxHeartbeats 4000000 in

theorem hostOps0_2_coef (V : Valuation τ sig (Elt F)) :
    after (hostOps0_2 (F := F)) V (Proc.devRef .tc main_v38)
      = padNorm (coefOf (V (Proc.devRef .tc main_v16)) (V (Proc.devRef .tc main_v9)) (V (Proc.devRef .tc main_v6)) (V (Proc.devRef .tc main_v7))) := by
  simp only [hostOps0_2]; after_results; rfl

theorem hostOps0_2_dstF (V : Valuation τ sig (Elt F)) :
    after (hostOps0_2 (F := F)) V (Proc.devRef .tc main_v39) = sitofp .f32 (padDst (V (Proc.devRef .tc main_v7))) := by
  simp only [hostOps0_2]; after_results; rfl

theorem hostOps0_2_c9 (V : Valuation τ sig (Elt F)) :
    after (hostOps0_2 (F := F)) V (Proc.devRef .tc main_c_9) = (constantI S_ 32 0#32 : (⟨S_, .i32⟩ : BufTy).Contents (Elt F)) := by
  simp only [hostOps0_2]; after_results

theorem hostOps0_3_out (V : Valuation τ sig (Elt F)) :
    after (hostOps0_3 (F := F)) V (Proc.devRef .tc main_v40)
      = pad S50176x96 ![0, 0] ![176, 0] ![0, 0] (V (Proc.devRef .tc main_arg0)) (sitofp .f32 (V (Proc.devRef .tc main_c_9))) pads_S50000x96_S50176x96_01760_000 h_S_ := by
  simp only [hostOps0_3]; after_results; rfl

theorem hostOps1_1_out (V : Valuation τ sig (Elt F)) :
    after (hostOps1_1 (F := F)) V (Proc.devRef .tc main_v47)
      = concatenate S851968x97 1
          [⟨S851968x96, mulf (V (Proc.devRef .tc main_v42))
              (broadcastInDim S851968x96 ![0, 1] bcast_S851968x1_S851968x96_0_1 (broadcastInDim S851968x1 ![0] bcast_S851968_S851968x1_0 (V (Proc.devRef .tc main_v38))))⟩,
           ⟨S851968x1, broadcastInDim S851968x1 ![0] bcast_S851968_S851968x1_0 (V (Proc.devRef .tc main_v39))⟩]
          concatenates_S851968x96_S851968x1_S851968x97_d1 := by
  simp only [hostOps1_1]; after_results
theorem hostOps3_1_out (V : Valuation τ sig (Elt F)) :
    after (hostOps3_1 (F := F)) V (Proc.devRef .tc main_v59)
      = concatenate S851968x97 1
          [⟨S851968x96, mulf (V (Proc.devRef .tc main_v54))
              (broadcastInDim S851968x96 ![0, 1] bcast_S851968x1_S851968x96_0_1 (broadcastInDim S851968x1 ![0] bcast_S851968_S851968x1_0 (V (Proc.devRef .tc main_v38))))⟩,
           ⟨S851968x1, broadcastInDim S851968x1 ![0] bcast_S851968_S851968x1_0 (V (Proc.devRef .tc main_v39))⟩]
          concatenates_S851968x96_S851968x1_S851968x97_d1 := by
  simp only [hostOps3_1]; after_results
theorem hostOps5_1_out (V : Valuation τ sig (Elt F)) :
    after (hostOps5_1 (F := F)) V (Proc.devRef .tc main_v71)
      = concatenate S851968x97 1
          [⟨S851968x96, mulf (V (Proc.devRef .tc main_v66))
              (broadcastInDim S851968x96 ![0, 1] bcast_S851968x1_S851968x96_0_1 (broadcastInDim S851968x1 ![0] bcast_S851968_S851968x1_0 (V (Proc.devRef .tc main_v38))))⟩,
           ⟨S851968x1, broadcastInDim S851968x1 ![0] bcast_S851968_S851968x1_0 (V (Proc.devRef .tc main_v39))⟩]
          concatenates_S851968x96_S851968x1_S851968x97_d1 := by
  simp only [hostOps5_1]; after_results

theorem hostOps2_out (V : Valuation τ sig (Elt F)) :
    after (hostOps2 (F := F)) V (Proc.devRef .tc main_v51)
      = addf (V (Proc.devRef .tc main_v48)) (broadcastInDim S50176x96 ![0, 1] bcast_S1x96_S50176x96_0_1 (broadcastInDim S1x96 ![1] bcast_S96_S1x96_1 (V (Proc.devRef .tc main_arg3)))) := by
  simp only [hostOps2]; after_results
theorem hostOps4_out (V : Valuation τ sig (Elt F)) :
    after (hostOps4 (F := F)) V (Proc.devRef .tc main_v63)
      = addf (V (Proc.devRef .tc main_v60)) (broadcastInDim S50176x96 ![0, 1] bcast_S1x96_S50176x96_0_1 (broadcastInDim S1x96 ![1] bcast_S96_S1x96_1 (V (Proc.devRef .tc main_arg5)))) := by
  simp only [hostOps4]; after_results

theorem hostOps2_1_out (V : Valuation τ sig (Elt F)) :
    after (hostOps2_1 (F := F)) V (Proc.devRef .tc main_v52)
      = maximumf (V (Proc.devRef .tc main_v51)) (broadcastInDim S50176x96 ![] bcast_S_S50176x96 (constant S_ .f32 0x00000000#32 : (⟨S_, .f32⟩ : BufTy).Contents (Elt F))) := by
  simp only [hostOps2_1]; after_results; rfl
theorem hostOps4_1_out (V : Valuation τ sig (Elt F)) :
    after (hostOps4_1 (F := F)) V (Proc.devRef .tc main_v64)
      = maximumf (V (Proc.devRef .tc main_v63)) (broadcastInDim S50176x96 ![] bcast_S_S50176x96 (constant S_ .f32 0x00000000#32 : (⟨S_, .f32⟩ : BufTy).Contents (Elt F))) := by
  simp only [hostOps4_1]; after_results; rfl

set_option maxHeartbeats 4000000 in

theorem hostOps6_out (V : Valuation τ sig (Elt F)) :
    after (hostOps6 (F := F)) V (Proc.devRef .tc main_v92)
      = poolFn (tailFn (V (Proc.devRef .tc main_v72)) (V (Proc.devRef .tc main_arg7))) (V (Proc.devRef .tc main_arg11)) (V (Proc.devRef .tc main_arg8)) (V (Proc.devRef .tc main_arg9)) := by
  simp only [hostOps6]; after_results_simp; rfl

end Steps

variable (m : (ℓ : Loc nD τ sig) → Buf (Elt F) ℓ) (ρ : Dev nD → PrngReg)

theorem W3_arg0 (c : Dev nD) : W3 m ρ c (Proc.devRef .tc main_arg0) = m ((c : Thread nD τ).loc main_arg0) :=
  keep m ρ c main_arg0 (i := 0) (j := 3) (by decide) (by decide)
theorem W8_arg3 (c : Dev nD) : W8 m ρ c (Proc.devRef .tc main_arg3) = m ((c : Thread nD τ).loc main_arg3) :=
  keep m ρ c main_arg3 (i := 0) (j := 8) (by decide) (by decide)
theorem W14_arg5 (c : Dev nD) : W14 m ρ c (Proc.devRef .tc main_arg5) = m ((c : Thread nD τ).loc main_arg5) :=
  keep m ρ c main_arg5 (i := 0) (j := 14) (by decide) (by decide)
theorem W20_arg7 (c : Dev nD) : W20 m ρ c (Proc.devRef .tc main_arg7) = m ((c : Thread nD τ).loc main_arg7) :=
  keep m ρ c main_arg7 (i := 0) (j := 20) (by decide) (by decide)
theorem W20_arg8 (c : Dev nD) : W20 m ρ c (Proc.devRef .tc main_arg8) = m ((c : Thread nD τ).loc main_arg8) :=
  keep m ρ c main_arg8 (i := 0) (j := 20) (by decide) (by decide)
theorem W20_arg9 (c : Dev nD) : W20 m ρ c (Proc.devRef .tc main_arg9) = m ((c : Thread nD τ).loc main_arg9) :=
  keep m ρ c main_arg9 (i := 0) (j := 20) (by decide) (by decide)
theorem W20_arg11 (c : Dev nD) : W20 m ρ c (Proc.devRef .tc main_arg11) = m ((c : Thread nD τ).loc main_arg11) :=
  keep m ρ c main_arg11 (i := 0) (j := 20) (by decide) (by decide)

theorem W2_src (c : Dev nD) : W2 m ρ c (Proc.devRef .tc main_v6) = Cert.ReferenceIdeal.Read.val_main_v7 (F := F) (m ((c : Thread nD τ).loc main_arg10)) :=
  (keep m ρ c main_v6 (i := 1) (j := 2) (by decide) (by decide)).trans (hostOps0_src (W0 m ρ c))
theorem W2_dst (c : Dev nD) : W2 m ρ c (Proc.devRef .tc main_v7) = Cert.ReferenceIdeal.Read.val_main_v8 (F := F) (m ((c : Thread nD τ).loc main_arg10)) :=
  (keep m ρ c main_v7 (i := 1) (j := 2) (by decide) (by decide)).trans (hostOps0_dst (W0 m ρ c))
theorem W2_wgt (c : Dev nD) : W2 m ρ c (Proc.devRef .tc main_v9) = Cert.ReferenceIdeal.Read.val_main_v10 (F := F) (m ((c : Thread nD τ).loc main_arg1)) :=
  (keep m ρ c main_v9 (i := 1) (j := 2) (by decide) (by decide)).trans (hostOps0_wgt (W0 m ρ c))

theorem W2_deg (c : Dev nD) : W2 m ρ c (Proc.devRef .tc main_v16) = Cert.ReferenceIdeal.Read.val_main_v17 (F := F) (m ((c : Thread nD τ).loc main_arg1)) (m ((c : Thread nD τ).loc main_arg10)) := by
  refine (hostOps0_1_out (W1 m ρ c)).trans ?_
  rw [show W1 m ρ c (Proc.devRef .tc main_v14) = _ from hostOps0_pos (W0 m ρ c),
    show W1 m ρ c (Proc.devRef .tc main_v15) = _ from hostOps0_rsq (W0 m ρ c),
    show W1 m ρ c (Proc.devRef .tc main_cst_2) = _ from hostOps0_zero (W0 m ρ c)]
  rfl

theorem W3_v34 (c : Dev nD) : W3 m ρ c (Proc.devRef .tc main_v34) = srcP (m ((c : Thread nD τ).loc main_arg10)) := by
  refine (hostOps0_2_src (W2 m ρ c)).trans ?_
  rw [W2_src]
  rfl

theorem W3_v38 (c : Dev nD) : W3 m ρ c (Proc.devRef .tc main_v38) = normP (m ((c : Thread nD τ).loc main_arg1)) (m ((c : Thread nD τ).loc main_arg10)) := by
  refine (hostOps0_2_coef (W2 m ρ c)).trans ?_
  rw [W2_deg, W2_wgt, W2_src, W2_dst, coefOf_ref]
  rfl

theorem W3_v39 (c : Dev nD) : W3 m ρ c (Proc.devRef .tc main_v39) = dstF (m ((c : Thread nD τ).loc main_arg10)) := by
  refine (hostOps0_2_dstF (W2 m ρ c)).trans ?_
  rw [W2_dst]
  rfl

theorem W5_v34 (c : Dev nD) : W5 m ρ c (Proc.devRef .tc main_v34) = W3 m ρ c (Proc.devRef .tc main_v34) :=
  keep m ρ c main_v34 (i := 3) (j := 5) (by decide) (by decide)
theorem W11_v34 (c : Dev nD) : W11 m ρ c (Proc.devRef .tc main_v34) = W3 m ρ c (Proc.devRef .tc main_v34) :=
  keep m ρ c main_v34 (i := 3) (j := 11) (by decide) (by decide)
theorem W17_v34 (c : Dev nD) : W17 m ρ c (Proc.devRef .tc main_v34) = W3 m ρ c (Proc.devRef .tc main_v34) :=
  keep m ρ c main_v34 (i := 3) (j := 17) (by decide) (by decide)
theorem W6_v38 (c : Dev nD) : W6 m ρ c (Proc.devRef .tc main_v38) = W3 m ρ c (Proc.devRef .tc main_v38) :=
  keep m ρ c main_v38 (i := 3) (j := 6) (by decide) (by decide)
theorem W12_v38 (c : Dev nD) : W12 m ρ c (Proc.devRef .tc main_v38) = W3 m ρ c (Proc.devRef .tc main_v38) :=
  keep m ρ c main_v38 (i := 3) (j := 12) (by decide) (by decide)
theorem W18_v38 (c : Dev nD) : W18 m ρ c (Proc.devRef .tc main_v38) = W3 m ρ c (Proc.devRef .tc main_v38) :=
  keep m ρ c main_v38 (i := 3) (j := 18) (by decide) (by decide)
theorem W6_v39 (c : Dev nD) : W6 m ρ c (Proc.devRef .tc main_v39) = W3 m ρ c (Proc.devRef .tc main_v39) :=
  keep m ρ c main_v39 (i := 3) (j := 6) (by decide) (by decide)
theorem W12_v39 (c : Dev nD) : W12 m ρ c (Proc.devRef .tc main_v39) = W3 m ρ c (Proc.devRef .tc main_v39) :=
  keep m ρ c main_v39 (i := 3) (j := 12) (by decide) (by decide)
theorem W18_v39 (c : Dev nD) : W18 m ρ c (Proc.devRef .tc main_v39) = W3 m ρ c (Proc.devRef .tc main_v39) :=
  keep m ρ c main_v39 (i := 3) (j := 18) (by decide) (by decide)

theorem V4_v40 (c : Dev nD) : V4 m ρ c main_v40 = padFn (m ((c : Thread nD τ).loc main_arg0)) := by
  refine (hostOps0_3_out (W3 m ρ c)).trans ?_
  rw [show W3 m ρ c (Proc.devRef .tc main_c_9) = _ from hostOps0_2_c9 (W2 m ρ c), W3_arg0]
  rfl

theorem V4_arg2 (c : Dev nD) : V4 m ρ c main_arg2 = m ((c : Thread nD τ).loc main_arg2) :=
  keep m ρ c main_arg2 (i := 0) (j := 4) (by decide) (by decide)

theorem V7_v47 (c : Dev nD) :
    V7 m ρ c main_v47 = payloadFn (V5 m ρ c main_v41) (srcP (m ((c : Thread nD τ).loc main_arg10))) (normP (m ((c : Thread nD τ).loc main_arg1)) (m ((c : Thread nD τ).loc main_arg10))) (dstF (m ((c : Thread nD τ).loc main_arg10))) := by
  have htake : W6 m ρ c (Proc.devRef .tc main_v42) = takeFn (V5 m ρ c main_v41) (srcP (m ((c : Thread nD τ).loc main_arg10))) := by
    refine (take1_eq (W5 m ρ c)).trans ?_
    rw [W5_v34, W3_v34]
  refine (hostOps1_1_out (W6 m ρ c)).trans ?_
  rw [htake, W6_v38, W3_v38, W6_v39, W3_v39]
  rfl

theorem V13_v59 (c : Dev nD) :
    V13 m ρ c main_v59 = payloadFn (V11 m ρ c main_v53) (srcP (m ((c : Thread nD τ).loc main_arg10))) (normP (m ((c : Thread nD τ).loc main_arg1)) (m ((c : Thread nD τ).loc main_arg10))) (dstF (m ((c : Thread nD τ).loc main_arg10))) := by
  have htake : W12 m ρ c (Proc.devRef .tc main_v54) = takeFn (V11 m ρ c main_v53) (srcP (m ((c : Thread nD τ).loc main_arg10))) := by
    refine (take3_eq (W11 m ρ c)).trans ?_
    rw [W11_v34, W3_v34]
  refine (hostOps3_1_out (W12 m ρ c)).trans ?_
  rw [htake, W12_v38, W3_v38, W12_v39, W3_v39]
  rfl

theorem V19_v71 (c : Dev nD) :
    V19 m ρ c main_v71 = payloadFn (V17 m ρ c main_v65) (srcP (m ((c : Thread nD τ).loc main_arg10))) (normP (m ((c : Thread nD τ).loc main_arg1)) (m ((c : Thread nD τ).loc main_arg10))) (dstF (m ((c : Thread nD τ).loc main_arg10))) := by
  have htake : W18 m ρ c (Proc.devRef .tc main_v66) = takeFn (V17 m ρ c main_v65) (srcP (m ((c : Thread nD τ).loc main_arg10))) := by
    refine (take5_eq (W17 m ρ c)).trans ?_
    rw [W17_v34, W3_v34]
  refine (hostOps5_1_out (W18 m ρ c)).trans ?_
  rw [htake, W18_v38, W3_v38, W18_v39, W3_v39]
  rfl

theorem V10_v52 (c : Dev nD) : V10 m ρ c main_v52 = postFn (V8 m ρ c main_v48) (m ((c : Thread nD τ).loc main_arg3)) := by
  refine (hostOps2_1_out (W9 m ρ c)).trans ?_
  rw [show W9 m ρ c (Proc.devRef .tc main_v51) = _ from hostOps2_out (W8 m ρ c), W8_arg3]
  rfl

theorem V10_arg4 (c : Dev nD) : V10 m ρ c main_arg4 = m ((c : Thread nD τ).loc main_arg4) :=
  keep m ρ c main_arg4 (i := 0) (j := 10) (by decide) (by decide)

theorem V16_v64 (c : Dev nD) : V16 m ρ c main_v64 = postFn (V14 m ρ c main_v60) (m ((c : Thread nD τ).loc main_arg5)) := by
  refine (hostOps4_1_out (W15 m ρ c)).trans ?_
  rw [show W15 m ρ c (Proc.devRef .tc main_v63) = _ from hostOps4_out (W14 m ρ c), W14_arg5]
  rfl

theorem V16_arg6 (c : Dev nD) : V16 m ρ c main_arg6 = m ((c : Thread nD τ).loc main_arg6) :=
  keep m ρ c main_arg6 (i := 0) (j := 16) (by decide) (by decide)

theorem V21_v92 (c : Dev nD) :
    V21 m ρ c main_v92 = poolFn (tailFn (V20 m ρ c main_v72) (m ((c : Thread nD τ).loc main_arg7))) (m ((c : Thread nD τ).loc main_arg11)) (m ((c : Thread nD τ).loc main_arg8)) (m ((c : Thread nD τ).loc main_arg9)) := by
  refine (hostOps6_out (W20 m ρ c)).trans ?_
  rw [W20_arg7, W20_arg11, W20_arg8, W20_arg9]

end Cert.KernelIdeal.Val

end
-- ==== Proof.Val.Blocks.lean ====
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.ValueIdx

theorem hz : (![0, 0] : Fin 2 → Nat) = fun _ => 0 := funext fun a => by fin_cases a <;> rfl

/-- `emb` puts a `b × K` block at block row `n` of an `N × K` array: its block index is `(n, 0)`. -/
abbrev RowBlock {b N K : ℕ} (n : ℕ) (emb : (⟨2, ![b, K]⟩ : Shape).Idx → (⟨2, ![N, K]⟩ : Shape).Idx) : Prop :=
  ∃ idx : Fin 2 → ℕ, idx 0 = n ∧ idx 1 = 0 ∧ ∀ y a, (emb y a).val = idx a * ![b, K] a + 1 * (y a).val

namespace RowBlock
variable {b N K n : ℕ} {emb : (⟨2, ![b, K]⟩ : Shape).Idx → (⟨2, ![N, K]⟩ : Shape).Idx} (h : RowBlock n emb)
include h

theorem row (q : Fin b) (f : Fin K) : (emb (ix2 q f) 0).val = b * n + q.val := by
  obtain ⟨idx, h0, -, he⟩ := h
  rw [he, h0]; show n * b + 1 * q.val = _; rw [Nat.mul_comm, Nat.one_mul]

theorem lt (q : Fin b) (f : Fin K) : b * n + q.val < N := h.row q f ▸ (emb (ix2 q f) 0).isLt

theorem apply (q : Fin b) (f : Fin K) : emb (ix2 q f) = ix2 ⟨b * n + q.val, h.lt q f⟩ f := by
  obtain ⟨idx, h0, h1, he⟩ := id h
  exact Shape.idx_ext₂ (h.row q f) (by rw [he, h1]; show 0 * K + 1 * f.val = f.val; omega)

/-- What has `G`'s rows `[b n, b n + b)` is `G` read through `emb`. -/
theorem read {α : Type} {X : (⟨2, ![b, K]⟩ : Shape).Idx → α} {G : (⟨2, ![N, K]⟩ : Shape).Idx → α}
    (hX : ∀ (q : Fin b) (f : Fin K) (hq : b * n + q.val < N), X (ix2 q f) = G (ix2 ⟨b * n + q.val, hq⟩ f)) :
    X = fun y => G (emb y) := by
  funext y
  obtain ⟨q, f, rfl⟩ : ∃ (q : Fin b) (f : Fin K), y = ix2 q f := ⟨y 0, y 1, eq_ix2 y⟩
  rw [h.apply]
  exact hX _ _ _
end RowBlock

/-- Row `r` of an `N × K` array lies in the block of `b` rows whose index is `(r / b, 0)`. -/
theorem block_range {b N K : ℕ} (hb : 0 < b) (i : (⟨2, ![N, K]⟩ : Shape).Idx) (idx : Fin 2 → ℕ) (h0 : idx 0 = (i 0).val / b) (h1 : idx 1 = 0) :
    ∀ a, idx a * ![b, K] a ≤ (i a).val ∧ (i a).val < idx a * ![b, K] a + ![b, K] a :=
  Fin.forall_fin_two.mpr ⟨by
      show idx 0 * b ≤ (i 0).val ∧ (i 0).val < idx 0 * b + b
      rw [h0]; exact ⟨Nat.div_mul_le_self _ _, Nat.lt_div_mul_add hb⟩, by
      show idx 1 * K ≤ (i 1).val ∧ (i 1).val < idx 1 * K + K
      rw [h1]; exact ⟨by omega, by have : (i 1).val < K := (i 1).isLt; omega⟩⟩

/-- A product contracted over one axis of extent `n`, accumulated from zero, at an index: the sum over that axis of the factors the caller names. -/
theorem matmul0_apply {sl sr so : Shape} {φ₁ φ₂ : FTy} (D : DotDims sl sr so) (n : ℕ) (hr : D.contr.rank = 1) (hs : D.contr.size ⟨0, by omega⟩ = n)
    (l : FVec Ideal sl φ₁) (r : FVec Ideal sr φ₂) (j : so.Idx) (L R : Fin n → EReal)
    (hl : ∀ k, l (D.lhsIdx j ((contrEquiv1 D n hr hs).symm k)) = L k) (hR : ∀ k, r (D.rhsIdx j ((contrEquiv1 D n hr hs).symm k)) = R k) :
    matmul D none l r (constant so .f32 0x00000000#32) j = ∑ k : Fin n, L k * R k := by
  simp only [matmul]
  rw [Ideal.matmul_constant_zero_apply, ← Equiv.sum_comp (contrEquiv1 D n hr hs).symm]
  exact Finset.sum_congr rfl fun k _ => by rw [hl, hR]

end Cert.KernelIdeal.Val

end
-- ==== Proof.Val.MmLib.lean ====
import proofs.«425610_j63256278335719_1_alg».proof.Proof.Gen.KernelIdeal.Skeleton
import proofs.«425610_j63256278335719_1_alg».proof.Proof.Val.Blocks

noncomputable section

namespace Cert.KernelIdeal.Val

open Cert.KernelIdeal Cert.KernelIdeal.Gen
open Idealize.ShloMosaic Idealize.ShloMosaic.ValueIdx

/-- Entry (p, q) of the body's product: both narrowings and the reshape are the identity on the extended reals. -/
theorem mm_pay_apply (x0 : Vec Ideal S512x96 .f32) (x1 : Vec Ideal S96x96 .f32) (p : Fin 512) (q : Fin 96) :
    k0_pay1 (F := Ideal) x0 x1 (ix2 p q) = ∑ k : Fin 96, x0 (ix2 p k) * x1 (ix2 k q) := by
  unfold k0_pay1
  refine matmul0_apply dot_S512x96_S96x96_S512x96_1_0_0_1_n_n 96 rfl rfl _ _ _ _ _ (fun k => ?_) (fun k => ?_)
  · rw [truncf_apply, shapeCast_self]
    exact congrArg x0 (Shape.idx_ext₂ rfl ((DotDims.lhsIdx_val_of_single _ rfl _ _).trans (contrEquiv1_symm_val _ 96 rfl rfl k)))
  · rw [truncf_apply]
    exact congrArg x1 (Shape.idx_ext₂ ((DotDims.rhsIdx_val_of_single _ rfl _ _).trans (contrEquiv1_symm_val _ 96 rfl rfl k)) rfl)

/-- The product of a 50176 × 96 array with a 96 × 96 array. -/
def mmG (A : Vec Ideal S50176x96 .f32) (B : Vec Ideal S96x96 .f32) : Vec Ideal S50176x96 .f32 :=
  fun i => ∑ k : Fin 96, A (ix2 (⟨(i 0).val, (i 0).isLt⟩ : Fin 50176) k) * B (ix2 k (⟨(i 1).val, (i 1).isLt⟩ : Fin 96))

theorem mmG_apply (A : Vec Ideal S50176x96 .f32) (B : Vec Ideal S96x96 .f32) (r : Fin 50176) (f : Fin 96) :
    mmG A B (ix2 r f) = ∑ k : Fin 96, A (ix2 r k) * B (ix2 k f) := rfl

/-- Block n of the product is the body's product of block n of the left array with the whole right array: the same sum, term by term. -/
theorem mm_block {A : Vec Ideal S50176x96 .f32} {B : Vec Ideal S96x96 .f32} {n : ℕ} {e0 e2 : S512x96.Idx → S50176x96.Idx} {e1 : S96x96.Idx → S96x96.Idx}
    (h0 : RowBlock n e0) (h1 : RowBlock 0 e1) (h2 : RowBlock n e2) :
    k0_pay1 (F := Ideal) (fun y => A (e0 y)) (fun y => B (e1 y)) = fun j => mmG A B (e2 j) :=
  h2.read fun p q hq => by
    rw [mm_pay_apply, mmG_apply]
    refine Finset.sum_congr rfl fun k _ => ?_
    rw [h0.apply, h1.apply]
    simp only [Nat.mul_zero, Nat.zero_add, Fin.eta]

end Cert.KernelIdeal.Val

end
-- ==== Proof.Val.MmValue0.lean ====
import proofs.«425610_j63256278335719_1_alg».proof.Proof.KI.Mm0
import proofs.«425610_j63256278335719_1_alg».proof.Proof.Val.MmLib

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem mm0_idx : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 :=
  (by decide +kernel : ∀ t : Fin grid0.N, _)

abbrev mm0_G := mmG

theorem mm0_G_apply (A : Vec Ideal S50176x96 .f32) (B : Vec Ideal S96x96 .f32) (r : Fin 50176) (f : Fin 96) :
    mm0_G A B (ix2 r f) = ∑ k : Fin 96, A (ix2 r k) * B (ix2 k f) := rfl

/-- At point t the body's product of the two windows' blocks of A and B is block t of the product of A and B. -/
theorem mm0_point (t : Fin cfg0.N) (A : Vec Ideal S50176x96 .f32) (B : Vec Ideal S96x96 .f32) :
    (cfg0.win 2).cut (grid0.coords t) (k0_pay1 (F := Ideal) (((cfg0.win 0).blk t).view.read (Elt Ideal) A) (((cfg0.win 1).blk t).view.read (Elt Ideal) B))
      = ((cfg0.win 2).blk t).view.read (Elt Ideal) (mmG A B) := by
  obtain ⟨e0, e1, e2⟩ := mm0_idx t
  exact mm_block (A := A) (B := B) (e0 := ((cfg0.win 0).blk t).view.emb) (e1 := ((cfg0.win 1).blk t).view.emb) (e2 := ((cfg0.win 2).blk t).view.emb)
    ⟨_, e0.1, e0.2, fun _ _ => rfl⟩ ⟨_, e1.1, e1.2, fun _ _ => rfl⟩ ⟨_, e2.1, e2.2, fun _ _ => rfl⟩

/-- Block t of the result is block t of the product of the arrays as the region finds them, and the 98 blocks of 512 rows cover it. -/
theorem mm0_final (V : (c : Dev nD) → (b : Ref sig .tc) → Buf (Elt Ideal) ((c : Thread nD τ).loc b)) (c : Dev nD) :
    (dat0 V c).arrAt 2 cfg0.N = mm0_G (V c (Pipeline.arrRef spec0 0)) (V c (Pipeline.arrRef spec0 1)) :=
  (dat0 V c).arrAt_eq_of_cover 2 _ (fun t _ => by
      show (cfg0.win 2).cut (grid0.coords t) ((dat0 V c).after 2 t) = _
      rw [after0_2]; unfold out0_2 iblk0
      rw [View.canon_unit_zero hz]
      simp only [View.ld_unit_zero (S := S512x96) hz, View.ld_unit_zero (S := S96x96) hz]
      exact mm0_point t _ _)
    fun i => by
      have hN : cfg0.N = 98 := N_0
      have hi : (i 0).val < 50176 := (i 0).isLt
      obtain ⟨t, ht⟩ : ∃ t : Fin cfg0.N, t.val = (i 0).val / 512 := ⟨⟨_, by rw [hN]; omega⟩, rfl⟩
      obtain ⟨-, -, e2⟩ := mm0_idx t
      refine ⟨t, flush0_2 t, ?_⟩
      show i ∈ ((View.whole (Pipeline.arrRef spec0 2)).slice (win0_2.rect t)).set
      rw [View.set_slice_whole, Rect.mem_set_unit]
      exact block_range (by decide) i _ (e2.1.trans ht) e2.2

end Cert.KernelIdeal.Val

end
-- ==== Proof.Val.MmValue2.lean ====
import proofs.«425610_j63256278335719_1_alg».proof.Proof.KI.Mm2
import proofs.«425610_j63256278335719_1_alg».proof.Proof.Val.MmLib

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem mm2_idx : ∀ t : Fin cfg2.N, (win2_0.index t 0 = t.val ∧ win2_0.index t 1 = 0) ∧ (win2_1.index t 0 = 0 ∧ win2_1.index t 1 = 0)
    ∧ win2_2.index t 0 = t.val ∧ win2_2.index t 1 = 0 :=
  (by decide +kernel : ∀ t : Fin grid2.N, _)

abbrev mm2_G := mmG

theorem mm2_G_apply (A : Vec Ideal S50176x96 .f32) (B : Vec Ideal S96x96 .f32) (r : Fin 50176) (f : Fin 96) :
    mm2_G A B (ix2 r f) = ∑ k : Fin 96, A (ix2 r k) * B (ix2 k f) := rfl

/-- At point t the body's product of the two windows' blocks of A and B is block t of the product of A and B. -/
theorem mm2_point (t : Fin cfg2.N) (A : Vec Ideal S50176x96 .f32) (B : Vec Ideal S96x96 .f32) :
    (cfg2.win 2).cut (grid2.coords t) (k0_pay1 (F := Ideal) (((cfg2.win 0).blk t).view.read (Elt Ideal) A) (((cfg2.win 1).blk t).view.read (Elt Ideal) B))
      = ((cfg2.win 2).blk t).view.read (Elt Ideal) (mmG A B) := by
  obtain ⟨e0, e1, e2⟩ := mm2_idx t
  exact mm_block (A := A) (B := B) (e0 := ((cfg2.win 0).blk t).view.emb) (e1 := ((cfg2.win 1).blk t).view.emb) (e2 := ((cfg2.win 2).blk t).view.emb)
    ⟨_, e0.1, e0.2, fun _ _ => rfl⟩ ⟨_, e1.1, e1.2, fun _ _ => rfl⟩ ⟨_, e2.1, e2.2, fun _ _ => rfl⟩

/-- Block t of the result is block t of the product of the arrays as the region finds them, and the 98 blocks of 512 rows cover it. -/
theorem mm2_final (V : (c : Dev nD) → (b : Ref sig .tc) → Buf (Elt Ideal) ((c : Thread nD τ).loc b)) (c : Dev nD) :
    (dat2 V c).arrAt 2 cfg2.N = mm2_G (V c (Pipeline.arrRef spec2 0)) (V c (Pipeline.arrRef spec2 1)) :=
  (dat2 V c).arrAt_eq_of_cover 2 _ (fun t _ => by
      show (cfg2.win 2).cut (grid2.coords t) ((dat2 V c).after 2 t) = _
      rw [after2_2]; unfold out2_2 iblk2
      rw [View.canon_unit_zero hz]
      simp only [View.ld_unit_zero (S := S512x96) hz, View.ld_unit_zero (S := S96x96) hz]
      exact mm2_point t _ _)
    fun i => by
      have hN : cfg2.N = 98 := N_2
      have hi : (i 0).val < 50176 := (i 0).isLt
      obtain ⟨t, ht⟩ : ∃ t : Fin cfg2.N, t.val = (i 0).val / 512 := ⟨⟨_, by rw [hN]; omega⟩, rfl⟩
      obtain ⟨-, -, e2⟩ := mm2_idx t
      refine ⟨t, flush2_2 t, ?_⟩
      show i ∈ ((View.whole (Pipeline.arrRef spec2 2)).slice (win2_2.rect t)).set
      rw [View.set_slice_whole, Rect.mem_set_unit]
      exact block_range (by decide) i _ (e2.1.trans ht) e2.2

end Cert.KernelIdeal.Val

end
-- ==== Proof.Val.MmValue4.lean ====
import proofs.«425610_j63256278335719_1_alg».proof.Proof.KI.Mm4
import proofs.«425610_j63256278335719_1_alg».proof.Proof.Val.MmLib

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem mm4_idx : ∀ t : Fin cfg4.N, (win4_0.index t 0 = t.val ∧ win4_0.index t 1 = 0) ∧ (win4_1.index t 0 = 0 ∧ win4_1.index t 1 = 0)
    ∧ win4_2.index t 0 = t.val ∧ win4_2.index t 1 = 0 :=
  (by decide +kernel : ∀ t : Fin grid4.N, _)

abbrev mm4_G := mmG

theorem mm4_G_apply (A : Vec Ideal S50176x96 .f32) (B : Vec Ideal S96x96 .f32) (r : Fin 50176) (f : Fin 96) :
    mm4_G A B (ix2 r f) = ∑ k : Fin 96, A (ix2 r k) * B (ix2 k f) := rfl

/-- At point t the body's product of the two windows' blocks of A and B is block t of the product of A and B. -/
theorem mm4_point (t : Fin cfg4.N) (A : Vec Ideal S50176x96 .f32) (B : Vec Ideal S96x96 .f32) :
    (cfg4.win 2).cut (grid4.coords t) (k0_pay1 (F := Ideal) (((cfg4.win 0).blk t).view.read (Elt Ideal) A) (((cfg4.win 1).blk t).view.read (Elt Ideal) B))
      = ((cfg4.win 2).blk t).view.read (Elt Ideal) (mmG A B) := by
  obtain ⟨e0, e1, e2⟩ := mm4_idx t
  exact mm_block (A := A) (B := B) (e0 := ((cfg4.win 0).blk t).view.emb) (e1 := ((cfg4.win 1).blk t).view.emb) (e2 := ((cfg4.win 2).blk t).view.emb)
    ⟨_, e0.1, e0.2, fun _ _ => rfl⟩ ⟨_, e1.1, e1.2, fun _ _ => rfl⟩ ⟨_, e2.1, e2.2, fun _ _ => rfl⟩

/-- Block t of the result is block t of the product of the arrays as the region finds them, and the 98 blocks of 512 rows cover it. -/
theorem mm4_final (V : (c : Dev nD) → (b : Ref sig .tc) → Buf (Elt Ideal) ((c : Thread nD τ).loc b)) (c : Dev nD) :
    (dat4 V c).arrAt 2 cfg4.N = mm4_G (V c (Pipeline.arrRef spec4 0)) (V c (Pipeline.arrRef spec4 1)) :=
  (dat4 V c).arrAt_eq_of_cover 2 _ (fun t _ => by
      show (cfg4.win 2).cut (grid4.coords t) ((dat4 V c).after 2 t) = _
      rw [after4_2]; unfold out4_2 iblk4
      rw [View.canon_unit_zero hz]
      simp only [View.ld_unit_zero (S := S512x96) hz, View.ld_unit_zero (S := S96x96) hz]
      exact mm4_point t _ _)
    fun i => by
      have hN : cfg4.N = 98 := N_4
      have hi : (i 0).val < 50176 := (i 0).isLt
      obtain ⟨t, ht⟩ : ∃ t : Fin cfg4.N, t.val = (i 0).val / 512 := ⟨⟨_, by rw [hN]; omega⟩, rfl⟩
      obtain ⟨-, -, e2⟩ := mm4_idx t
      refine ⟨t, flush4_2 t, ?_⟩
      show i ∈ ((View.whole (Pipeline.arrRef spec4 2)).slice (win4_2.rect t)).set
      rw [View.set_slice_whole, Rect.mem_set_unit]
      exact block_range (by decide) i _ (e2.1.trans ht) e2.2

end Cert.KernelIdeal.Val

end
-- ==== Proof.Val.AggStep.lean ====
import proofs.«425610_j63256278335719_1_alg».proof.Proof.KI.AggAcc
import proofs.«425610_j63256278335719_1_alg».proof.Proof.Val.Blocks

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem Idealize.ShloMosaic.ValueIdx

/-- A sum over an initial segment of `Fin N` grows by the next `K` terms. -/
theorem sum_lt_add {M : Type*} [AddCommMonoid M] {N : ℕ} (T : Fin N → M) (a : ℕ) :
    ∀ (K : ℕ) (h : a + K ≤ N), (∑ e : Fin N, if e.val < a + K then T e else 0)
      = (∑ e : Fin N, if e.val < a then T e else 0) + ∑ e' : Fin K, T ⟨a + e'.val, by have := e'.isLt; omega⟩
  | 0, h => by simp
  | K + 1, h => by
    have hs : ∀ e : Fin N, (if e.val < a + (K + 1) then T e else 0)
        = (if e.val < a + K then T e else 0) + (if e = (⟨a + K, by omega⟩ : Fin N) then T e else 0) := by
      intro e
      by_cases h1 : e.val < a + K
      · rw [if_pos h1, if_pos (by omega), if_neg (fun he => by rw [he] at h1; simp at h1), add_zero]
      · by_cases h2 : e.val = a + K
        · rw [if_neg h1, if_pos (by omega), if_pos (Fin.ext h2), zero_add]
        · rw [if_neg h1, if_neg (by omega), if_neg (fun he => h2 (by rw [he])), add_zero]
    rw [Finset.sum_congr rfl (fun e _ => hs e), Finset.sum_add_distrib, sum_lt_add T a K (by omega),
      Finset.sum_ite_eq' Finset.univ (⟨a + K, by omega⟩ : Fin N) T, if_pos (Finset.mem_univ _), Fin.sum_univ_castSucc, add_assoc]
    rfl

/-- Below 2^31 the word 512 b + q, read signed, is that number. -/
theorem node_word (b q : ℕ) (h : 512 * b + q < 2 ^ 31) :
    (IntOp.addi (Scalar.muli (BitVec.ofNat 32 b) 512#32) (BitVec.ofNat 32 q)).toInt = ((512 * b + q : ℕ) : ℤ) := by
  have e : IntOp.addi (Scalar.muli (BitVec.ofNat 32 b) 512#32) (BitVec.ofNat 32 q) = BitVec.ofNat 32 (512 * b + q) := by
    show BitVec.ofNat 32 b * 512#32 + BitVec.ofNat 32 q = _
    apply BitVec.eq_of_toNat_eq
    simp only [BitVec.toNat_add, BitVec.toNat_mul, BitVec.toNat_ofNat]
    omega
  have hn : (BitVec.ofNat 32 (512 * b + q)).toNat = 512 * b + q := by
    rw [BitVec.toNat_ofNat]; omega
  rw [e, BitVec.toInt_eq_toNat_of_lt (by rw [hn]; omega), hn]

/-- A decided proposition as a bit, widened and read as a number, is 1 or 0. -/
theorem bit_real (p : Prop) [Decidable p] :
    ((((BitVec.ofBool (decide p)).setWidth 32).toInt : ℝ) : EReal) = if p then 1 else 0 := by
  by_cases h : p
  · rw [if_pos h, decide_eq_true h]
    show (((1 : ℤ) : ℝ) : EReal) = 1
    simp
  · rw [if_neg h, decide_eq_false h]
    show (((0 : ℤ) : ℝ) : EReal) = 0
    simp

/-- The one-hot product into a zero accumulator, at lane `q` and feature `f`: both operands are contracted over the block's rows. -/
theorem agg_matmul_apply (l : FVec Ideal S8192x512 .bf16) (r : FVec Ideal S8192x96 .bf16) (q : Fin 512) (f : Fin 96) :
    matmul dot_S8192x512_S8192x96_S512x96_0_0_1_1_n_n none l r (constant S512x96 .f32 0x00000000#32) (ix2 q f) = ∑ e : Fin 8192, l (ix2 e q) * r (ix2 e f) :=
  matmul0_apply _ 8192 rfl rfl l r _ _ _
    (fun e => congrArg l (Shape.idx_ext₂ ((DotDims.lhsIdx_val_of_single _ rfl _ _).trans (contrEquiv1_symm_val _ 8192 rfl rfl e)) rfl))
    (fun e => congrArg r (Shape.idx_ext₂ ((DotDims.rhsIdx_val_of_single _ rfl _ _).trans (contrEquiv1_symm_val _ 8192 rfl rfl e)) rfl))

/-- Column 96 of the block, repeated along every lane. -/
theorem dest_col (v : FVec Ideal S8192x97 .f32) (h : S8192x97.Slices ![0, 96] S8192x1) (hb : S8192x1.Broadcasts S8192x512)
    (e : Fin 8192) (q : Fin 512) :
    broadcastTo S8192x512 (extractStridedSlice S8192x1 ![0, 96] v h) hb (ix2 e q) = v (ix2 e (Fin.last 96)) :=
  (broadcastTo_apply _ hb (ix2 e q) (ix2 e (0 : Fin 1)) (Fin.forall_fin_two.mpr ⟨rfl, rfl⟩)).trans
    (extractStridedSlice_apply _ v h (ix2 e (0 : Fin 1)) (ix2 e (Fin.last 96)) (Fin.forall_fin_two.mpr ⟨(Nat.zero_add _).symm, rfl⟩))

/-- The first 96 columns of the block. -/
theorem feat_col (v : FVec Ideal S8192x97 .f32) (h : S8192x97.Slices ![0, 0] S8192x96) (e : Fin 8192) (f : Fin 96) :
    extractStridedSlice S8192x96 ![0, 0] v h (ix2 e f) = v (ix2 e f.castSucc) :=
  extractStridedSlice_apply _ v h (ix2 e f) (ix2 e f.castSucc) (Fin.forall_fin_two.mpr ⟨(Nat.zero_add _).symm, (Nat.zero_add _).symm⟩)

/-- A one-row array repeated down the rows reads, in each column, its own entry there. -/
theorem node_row {α : Type} (x : S1x512.Idx → α) (hb : S1x512.Broadcasts S8192x512) (e : Fin 8192) (q : Fin 512) :
    broadcastTo S8192x512 x hb (ix2 e q) = x (ix2 (0 : Fin 1) q) :=
  broadcastTo_apply x hb (ix2 e q) (ix2 (0 : Fin 1) q) (Fin.forall_fin_two.mpr ⟨rfl, rfl⟩)

/-- One point at (q, f): the accumulator's entry plus the features of the block's rows whose destination is node 512 b + q, since 1 * x = x and 0 * x = 0. -/
theorem k1_pay2_apply (i : grid1.Coords) (v3 : Vec Ideal S8192x97 .f32) (v20 : Vec Ideal S512x96 .f32) (q : Fin 512) (f : Fin 96) :
    k1_pay2 (F := Ideal) i v3 v20 (ix2 q f)
      = v20 (ix2 q f) + ∑ e : Fin 8192, (if v3 (ix2 e (Fin.last 96)) = (((512 * (i 0).val + q.val : ℕ) : ℝ) : EReal) then v3 (ix2 e f.castSucc) else 0) := by
  have hb : (i 0).val < 98 := (i 0).isLt
  have hq : q.val < 512 := q.isLt
  unfold k1_pay2
  dsimp only
  rw [shapeCast_self, shapeCast_self, addf_apply, agg_matmul_apply]
  refine congrArg (v20 (ix2 q f) + ·) (Finset.sum_congr rfl fun e _ => ?_)
  rw [truncf_apply, truncf_apply, feat_col, sitofp_apply, extui_apply, cmpf_apply, dest_col, node_row, sitofp_apply]
  show ((((BitVec.ofBool (decide (v3 (ix2 e (Fin.last 96))
      = (((IntOp.addi (Scalar.muli (BitVec.ofNat 32 (i 0).val) 512#32) (iota Kind.tc S1x512 32 [1] iota_S1x512_d1_w32 (ix2 (0 : Fin 1) q))).toInt : ℝ) : EReal)))).setWidth 32).toInt : ℝ) : EReal) * _ = _
  rw [iota_single_apply]
  show ((((BitVec.ofBool (decide (v3 (ix2 e (Fin.last 96))
      = (((IntOp.addi (Scalar.muli (BitVec.ofNat 32 (i 0).val) 512#32) (BitVec.ofNat 32 q.val)).toInt : ℝ) : EReal)))).setWidth 32).toInt : ℝ) : EReal) * _ = _
  rw [node_word _ q.val (by omega), bit_real, Int.cast_natCast, ite_mul, one_mul, zero_mul]

/-- What edge slot `e` gives node `n` at feature `f`: its feature if `n` is its destination, else zero. -/
def aggTerm (P : Vec Ideal S851968x97 .f32) (n : ℕ) (f : Fin 96) (e : Fin 851968) : EReal :=
  if P (ix2 e (Fin.last 96)) = (((n : ℕ) : ℝ) : EReal) then P (ix2 e f.castSucc) else 0

/-- Node by node and feature by feature, the sum over all edge slots of what each gives. -/
def aggSum (P : Vec Ideal S851968x97 .f32) : Vec Ideal S50176x96 .f32 :=
  fun i => ∑ e : Fin 851968, aggTerm P (i 0).val (i 1) e

/-- Adding the 104 blocks of a run in turn to zero gives the sum over all 851968 slots: a sum over an initial segment grows by one block a point. -/
theorem agg_run (P : Vec Ideal S851968x97 .f32) {N : ℕ} (hN : N = 10192)
    (S : (n : ℕ) → n < N → Vec Ideal S512x96 .f32 × Vec Ideal S512x96 .f32) (cd : (n : ℕ) → n < N → grid1.Coords)
    (E : (n : ℕ) → n < N → Vec Ideal S8192x97 .f32)
    (hcd : ∀ n h, ((cd n h) 0).val = n / 104)
    (hE : ∀ n h, ∃ emb, RowBlock (n % 104) emb ∧ E n h = fun y => P (emb y))
    (hS : ∀ n h, (S n h).2 = k1_pay2 (cd n h) (E n h) (if n % 104 = 0 then k1_pay1 (F := Ideal) else (S (n - 1) (Nat.lt_of_le_of_lt (Nat.sub_le _ _) h)).2))
    (hO : ∀ n h, n % 104 = 103 → (S n h).1 = k1_pay2 (cd n h) (E n h) (S (n - 1) (Nat.lt_of_le_of_lt (Nat.sub_le _ _) h)).2)
    (n : ℕ) (h : n < N) (h1 : n % 104 = 103) (q : Fin 512) (f : Fin 96) (hq : 512 * (n / 104) + q.val < 50176) :
    (S n h).1 (ix2 q f) = aggSum P (ix2 ⟨512 * (n / 104) + q.val, hq⟩ f) := by
  have step : ∀ (n : ℕ) (h : n < N) (acc : Vec Ideal S512x96 .f32) (q : Fin 512) (f : Fin 96),
      acc (ix2 q f) = (∑ e : Fin 851968, if e.val < 8192 * (n % 104) then aggTerm P (512 * (n / 104) + q.val) f e else 0) →
      k1_pay2 (cd n h) (E n h) acc (ix2 q f) = ∑ e : Fin 851968, if e.val < 8192 * (n % 104 + 1) then aggTerm P (512 * (n / 104) + q.val) f e else 0 := by
    intro n h acc q f hacc
    obtain ⟨emb, hemb, hEn⟩ := hE n h
    rw [k1_pay2_apply, hacc, hcd, show 8192 * (n % 104 + 1) = 8192 * (n % 104) + 8192 by omega,
      sum_lt_add (aggTerm P (512 * (n / 104) + q.val) f) (8192 * (n % 104)) 8192 (by omega), hEn]
    refine congrArg (_ + ·) (Finset.sum_congr rfl fun e' _ => ?_)
    show _ = aggTerm P _ f _
    unfold aggTerm
    beta_reduce
    rw [hemb.apply, hemb.apply]
  have scratch : ∀ (n : ℕ) (h : n < N) (q : Fin 512) (f : Fin 96),
      (S n h).2 (ix2 q f) = ∑ e : Fin 851968, if e.val < 8192 * (n % 104 + 1) then aggTerm P (512 * (n / 104) + q.val) f e else 0 := by
    intro n
    induction n using Nat.strong_induction_on with
    | _ n ih =>
      intro h q f
      rw [hS n h]
      refine step n h _ q f ?_
      by_cases h0 : n % 104 = 0
      · rw [if_pos h0, h0]
        unfold k1_pay1
        rw [shapeCast_self]
        exact Ideal.ofBits_zero_f32.trans (Finset.sum_eq_zero fun e _ => if_neg (Nat.not_lt_zero _)).symm
      · rw [if_neg h0, ih (n - 1) (by omega), show (n - 1) % 104 + 1 = n % 104 by omega, show (n - 1) / 104 = n / 104 by omega]
  rw [hO n h h1]
  refine (step n h _ q f ?_).trans ?_
  · rw [scratch (n - 1), show (n - 1) % 104 + 1 = n % 104 by omega, show (n - 1) / 104 = n / 104 by omega]
  · rw [h1]
    exact Finset.sum_congr rfl fun e _ => if_pos e.isLt

section Runs
variable (c : Dev nD) (i : grid1.Coords) (a2 : Memref sig .tc .vmem S8192x97 .f32) (h2 : a2.IsWhole) (a3 : Memref sig .tc .vmem S512x96 .f32) (h3 : a3.IsWhole)
  (a4 : Memref sig .tc .vmem S512x96 .f32) (h4 : a4.IsWhole) (x : Vec Ideal S8192x97 .f32) (xs : Vec Ideal S512x96 .f32)

/-- First point of a run: the zero block updated with the point's edge block. -/
theorem runA_scratch (hc0 : cond1_0 i) (hc1 : ¬cond1_1 i) :
    View.canon (kernelRun1_A c i a2 h2 a3 h3 a4 h4 hc0 hc1 x).2.1 = k1_pay2 i x (k1_pay1 (F := Ideal)) := by
  unfold kernelRun1_A; dsimp only; sl_unfold_words
  rw [View.canon_cons_unit_zero (S := S512x96) hz, View.readCov_unit_zero (S := S512x96) _ hz]
  simp only [View.readAt_eq_ld, h2.read_unread, View.ld_unit_zero (S := S8192x97) hz]

/-- Inside a run: what the point before left, updated with the point's edge block. -/
theorem runB_scratch (hc0 : ¬cond1_0 i) (hc1 : ¬cond1_1 i) :
    View.canon (kernelRun1_B c i a2 h2 a3 h3 a4 h4 hc0 hc1 x xs).2.1 = k1_pay2 i x xs := by
  unfold kernelRun1_B; dsimp only; sl_unfold_words
  rw [View.canon_unit_zero (S := S512x96) hz]
  simp only [View.readAt_eq_ld, h2.read_unread, h4.read_unread, View.ld_unit_zero (S := S8192x97) hz, View.ld_unit_zero (S := S512x96) hz]

/-- Last point of a run: the same update, -/
theorem runC_scratch (hc0 : ¬cond1_0 i) (hc1 : cond1_1 i) :
    View.canon (kernelRun1_C c i a2 h2 a3 h3 a4 h4 hc0 hc1 x xs).2.1 = k1_pay2 i x xs := by
  unfold kernelRun1_C; dsimp only; sl_unfold_words
  rw [View.canon_unit_zero (S := S512x96) hz]
  simp only [View.readAt_eq_ld, h2.read_unread, h4.read_unread, View.ld_unit_zero (S := S8192x97) hz, View.ld_unit_zero (S := S512x96) hz]

/-- and the output block is a copy of it. -/
theorem runC_out (hc0 : ¬cond1_0 i) (hc1 : cond1_1 i) :
    View.canon (kernelRun1_C c i a2 h2 a3 h3 a4 h4 hc0 hc1 x xs).1 = k1_pay2 i x xs := by
  unfold kernelRun1_C; dsimp only; sl_unfold_words
  rw [View.canon_unit_zero (S := S512x96) hz, View.readCov_unit_zero (S := S512x96) _ hz]
  simp only [View.readAt_eq_ld, h2.read_unread, h4.read_unread, View.ld_unit_zero (S := S8192x97) hz, View.ld_unit_zero (S := S512x96) hz]
end Runs

section Acc
variable (R : AccRegion) (c : Dev nD) (blk : Fin cfg1.N → Vec Ideal S8192x97 .f32)

theorem coords_row : ∀ t : Fin cfg1.N, ((grid1.coords t) 0).val = t.val / 104 :=
  (by decide +kernel : ∀ t : Fin grid1.N, _)

/-- After a point: its update of the zero block (first point of a run) or of what the point before left. -/
theorem outs_snd (t : Fin cfg1.N) :
    (outsAt R c blk t.val t.isLt).2 = k1_pay2 (grid1.coords t) (blk t)
      (if t.val % 104 = 0 then k1_pay1 (F := Ideal) else (outsAt R c blk (t.val - 1) (Nat.lt_of_le_of_lt (Nat.sub_le _ _) t.isLt)).2) := by
  by_cases h0 : t.val % 104 = 0
  · rw [if_pos h0, outsAt_A R c t blk h0 (by omega)]
    exact (View.read_writes_eq_canon R.VS _ _ (scoverA R c t h0 _ _)).trans (runA_scratch _ _ _ _ _ _ _ _ _ _ _)
  · rw [if_neg h0]
    by_cases h1 : t.val % 104 = 103
    · rw [outsAt_C R c t blk h0 h1]
      exact (View.read_writes_eq_canon R.VS _ _ (scoverC R c t h0 h1 _ _)).trans (runC_scratch _ _ _ _ _ _ _ _ _ _ _ _)
    · rw [outsAt_B R c t blk h0 h1]
      exact (View.read_writes_eq_canon R.VS _ _ (scoverB R c t h0 h1 _ _)).trans (runB_scratch _ _ _ _ _ _ _ _ _ _ _ _)

/-- The last point of a run puts the same value in the output block. -/
theorem outs_fst (t : Fin cfg1.N) (h1 : t.val % 104 = 103) :
    (outsAt R c blk t.val t.isLt).1 = k1_pay2 (grid1.coords t) (blk t) (outsAt R c blk (t.val - 1) (Nat.lt_of_le_of_lt (Nat.sub_le _ _) t.isLt)).2 := by
  rw [outsAt_C R c t blk (by omega) h1]
  exact (View.read_writes_eq_canon R.VO _ _ (coverC R c t _ h1 _ _)).trans (runC_out _ _ _ _ _ _ _ _ _ _ _ _)

/-- The output block at the last point of a run, when point t's block is rows [8192 (t % 104), …) of P: for the nodes of its row block, the sum over all edge slots. -/
theorem acc_out (P : Vec Ideal S851968x97 .f32) (hblk : ∀ t, ∃ emb, RowBlock (t.val % 104) emb ∧ blk t = fun y => P (emb y))
    (t : Fin cfg1.N) (h1 : t.val % 104 = 103) (q : Fin 512) (f : Fin 96) (hq : 512 * (t.val / 104) + q.val < 50176) :
    (outsAt R c blk t.val t.isLt).1 (ix2 q f) = aggSum P (ix2 ⟨512 * (t.val / 104) + q.val, hq⟩ f) :=
  agg_run P N_1 (outsAt R c blk) (fun n h => grid1.coords ⟨n, h⟩) (fun n h => blk ⟨n, h⟩) (fun n h => coords_row ⟨n, h⟩) (fun n h => hblk ⟨n, h⟩)
    (fun n h => outs_snd R c blk ⟨n, h⟩) (fun n h => outs_fst R c blk ⟨n, h⟩) t.val t.isLt h1 q f hq
end Acc

end Cert.KernelIdeal.Val

end
-- ==== Proof.Val.AggValue1.lean ====
import proofs.«425610_j63256278335719_1_alg».proof.Proof.KI.Agg1
import proofs.«425610_j63256278335719_1_alg».proof.Proof.Val.AggStep

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem agg1_idx : ∀ t : Fin cfg1.N, (win1_0.index t 0 = t.val % 104 ∧ win1_0.index t 1 = 0) ∧ win1_1.index t 0 = t.val / 104 ∧ win1_1.index t 1 = 0 :=
  (by decide +kernel : ∀ t : Fin grid1.N, _)

variable (V : (c : Dev nD) → (b : Ref sig .tc) → Buf (Elt Ideal) ((c : Thread nD τ).loc b))

theorem agg1_blk (c : Dev nD) (t : Fin cfg1.N) :
    ∃ emb, RowBlock (t.val % 104) emb ∧ iblk1 V c 0 t = fun y => V c (Pipeline.arrRef spec1 0) (emb y) :=
  ⟨((cfg1.win 0).blk t).view.emb, ⟨_, (agg1_idx t).1.1, (agg1_idx t).1.2, fun _ _ => rfl⟩, rfl⟩

omit V in
theorem agg1_oblk (t : Fin cfg1.N) : RowBlock (b := 512) (N := 50176) (K := 96) (t.val / 104) ((cfg1.win 1).blk t).view.emb :=
  ⟨_, (agg1_idx t).2.1, (agg1_idx t).2.2, fun _ _ => rfl⟩

omit V in
theorem agg1_read (t : Fin cfg1.N) (G : Vec Ideal S50176x96 .f32) :
    (cfg1.win 1).cut (grid1.coords t) (fun y => G (((cfg1.win 1).blk t).view.emb y)) = ((cfg1.win 1).blk t).view.read (Elt Ideal) G := rfl

/-- The last point of each run gives its 512 rows of the sum over all edge slots, and the 98 runs' blocks cover the result. -/
theorem agg1_final (c : Dev nD) : (dat1 V c).arrAt 1 cfg1.N = aggSum (V c (Pipeline.arrRef spec1 0)) :=
  (dat1 V c).arrAt_eq_of_cover 1 _ (fun t hf => by
      have h : (outsAt R1 c (fun t => iblk1 V c 0 t) t.val t.isLt).1 = fun y => aggSum (V c (Pipeline.arrRef spec1 0)) (((cfg1.win 1).blk t).view.emb y) :=
        (agg1_oblk t).read (acc_out R1 c _ _ (agg1_blk V c) t ((flush1_1 t).mp hf))
      show (cfg1.win 1).cut (grid1.coords t) ((dat1 V c).after 1 t) = _
      rw [after1_1, h]
      exact agg1_read t _)
    fun i => by
      have hN : cfg1.N = 10192 := N_1
      have hi : (i 0).val < 50176 := (i 0).isLt
      obtain ⟨t, ht⟩ : ∃ t : Fin cfg1.N, t.val = 104 * ((i 0).val / 512) + 103 := ⟨⟨_, by rw [hN]; omega⟩, rfl⟩
      obtain ⟨-, e1⟩ := agg1_idx t
      refine ⟨t, (flush1_1 t).mpr (by omega), ?_⟩
      show i ∈ ((View.whole (Pipeline.arrRef spec1 1)).slice (win1_1.rect t)).set
      rw [View.set_slice_whole, Rect.mem_set_unit]
      exact block_range (by decide) i _ (e1.1.trans (by omega)) e1.2

end Cert.KernelIdeal.Val

end
-- ==== Proof.Val.AggValue3.lean ====
import proofs.«425610_j63256278335719_1_alg».proof.Proof.KI.Agg3
import proofs.«425610_j63256278335719_1_alg».proof.Proof.Val.AggStep

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem agg3_idx : ∀ t : Fin cfg3.N, (win3_0.index t 0 = t.val % 104 ∧ win3_0.index t 1 = 0) ∧ win3_1.index t 0 = t.val / 104 ∧ win3_1.index t 1 = 0 :=
  (by decide +kernel : ∀ t : Fin grid3.N, _)

variable (V : (c : Dev nD) → (b : Ref sig .tc) → Buf (Elt Ideal) ((c : Thread nD τ).loc b))

theorem agg3_blk (c : Dev nD) (t : Fin cfg3.N) :
    ∃ emb, RowBlock (t.val % 104) emb ∧ iblk3 V c 0 t = fun y => V c (Pipeline.arrRef spec3 0) (emb y) :=
  ⟨((cfg3.win 0).blk t).view.emb, ⟨_, (agg3_idx t).1.1, (agg3_idx t).1.2, fun _ _ => rfl⟩, rfl⟩

omit V in
theorem agg3_oblk (t : Fin cfg3.N) : RowBlock (b := 512) (N := 50176) (K := 96) (t.val / 104) ((cfg3.win 1).blk t).view.emb :=
  ⟨_, (agg3_idx t).2.1, (agg3_idx t).2.2, fun _ _ => rfl⟩

omit V in
theorem agg3_read (t : Fin cfg3.N) (G : Vec Ideal S50176x96 .f32) :
    (cfg3.win 1).cut (grid3.coords t) (fun y => G (((cfg3.win 1).blk t).view.emb y)) = ((cfg3.win 1).blk t).view.read (Elt Ideal) G := rfl

/-- The last point of each run gives its 512 rows of the sum over all edge slots, and the 98 runs' blocks cover the result. -/
theorem agg3_final (c : Dev nD) : (dat3 V c).arrAt 1 cfg3.N = aggSum (V c (Pipeline.arrRef spec3 0)) :=
  (dat3 V c).arrAt_eq_of_cover 1 _ (fun t hf => by
      have h : (outsAt R3 c (fun t => iblk3 V c 0 t) t.val t.isLt).1 = fun y => aggSum (V c (Pipeline.arrRef spec3 0)) (((cfg3.win 1).blk t).view.emb y) :=
        (agg3_oblk t).read (acc_out R3 c _ _ (agg3_blk V c) t ((flush3_1 t).mp hf))
      show (cfg3.win 1).cut (grid3.coords t) ((dat3 V c).after 1 t) = _
      rw [after3_1, h]
      exact agg3_read t _)
    fun i => by
      have hN : cfg3.N = 10192 := N_3
      have hi : (i 0).val < 50176 := (i 0).isLt
      obtain ⟨t, ht⟩ : ∃ t : Fin cfg3.N, t.val = 104 * ((i 0).val / 512) + 103 := ⟨⟨_, by rw [hN]; omega⟩, rfl⟩
      obtain ⟨-, e1⟩ := agg3_idx t
      refine ⟨t, (flush3_1 t).mpr (by omega), ?_⟩
      show i ∈ ((View.whole (Pipeline.arrRef spec3 1)).slice (win3_1.rect t)).set
      rw [View.set_slice_whole, Rect.mem_set_unit]
      exact block_range (by decide) i _ (e1.1.trans (by omega)) e1.2

end Cert.KernelIdeal.Val

end
-- ==== Proof.Val.AggValue5.lean ====
import proofs.«425610_j63256278335719_1_alg».proof.Proof.KI.Agg5
import proofs.«425610_j63256278335719_1_alg».proof.Proof.Val.AggStep

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem agg5_idx : ∀ t : Fin cfg5.N, (win5_0.index t 0 = t.val % 104 ∧ win5_0.index t 1 = 0) ∧ win5_1.index t 0 = t.val / 104 ∧ win5_1.index t 1 = 0 :=
  (by decide +kernel : ∀ t : Fin grid5.N, _)

variable (V : (c : Dev nD) → (b : Ref sig .tc) → Buf (Elt Ideal) ((c : Thread nD τ).loc b))

theorem agg5_blk (c : Dev nD) (t : Fin cfg5.N) :
    ∃ emb, RowBlock (t.val % 104) emb ∧ iblk5 V c 0 t = fun y => V c (Pipeline.arrRef spec5 0) (emb y) :=
  ⟨((cfg5.win 0).blk t).view.emb, ⟨_, (agg5_idx t).1.1, (agg5_idx t).1.2, fun _ _ => rfl⟩, rfl⟩

omit V in
theorem agg5_oblk (t : Fin cfg5.N) : RowBlock (b := 512) (N := 50176) (K := 96) (t.val / 104) ((cfg5.win 1).blk t).view.emb :=
  ⟨_, (agg5_idx t).2.1, (agg5_idx t).2.2, fun _ _ => rfl⟩

omit V in
theorem agg5_read (t : Fin cfg5.N) (G : Vec Ideal S50176x96 .f32) :
    (cfg5.win 1).cut (grid5.coords t) (fun y => G (((cfg5.win 1).blk t).view.emb y)) = ((cfg5.win 1).blk t).view.read (Elt Ideal) G := rfl

/-- The last point of each run gives its 512 rows of the sum over all edge slots, and the 98 runs' blocks cover the result. -/
theorem agg5_final (c : Dev nD) : (dat5 V c).arrAt 1 cfg5.N = aggSum (V c (Pipeline.arrRef spec5 0)) :=
  (dat5 V c).arrAt_eq_of_cover 1 _ (fun t hf => by
      have h : (outsAt R5 c (fun t => iblk5 V c 0 t) t.val t.isLt).1 = fun y => aggSum (V c (Pipeline.arrRef spec5 0)) (((cfg5.win 1).blk t).view.emb y) :=
        (agg5_oblk t).read (acc_out R5 c _ _ (agg5_blk V c) t ((flush5_1 t).mp hf))
      show (cfg5.win 1).cut (grid5.coords t) ((dat5 V c).after 1 t) = _
      rw [after5_1, h]
      exact agg5_read t _)
    fun i => by
      have hN : cfg5.N = 10192 := N_5
      have hi : (i 0).val < 50176 := (i 0).isLt
      obtain ⟨t, ht⟩ : ∃ t : Fin cfg5.N, t.val = 104 * ((i 0).val / 512) + 103 := ⟨⟨_, by rw [hN]; omega⟩, rfl⟩
      obtain ⟨-, e1⟩ := agg5_idx t
      refine ⟨t, (flush5_1 t).mpr (by omega), ?_⟩
      show i ∈ ((View.whole (Pipeline.arrRef spec5 1)).slice (win5_1.rect t)).set
      rw [View.set_slice_whole, Rect.mem_set_unit]
      exact block_range (by decide) i _ (e1.1.trans (by omega)) e1.2

end Cert.KernelIdeal.Val

end
-- ==== Proof.Val.Common.lean ====
import Idealize.ShloMosaic.Lib.ValueIdx
import Idealize.ShloMosaic.PureOps.Ideal

namespace Cert.Common

/-- The node a signed index names: the identity on [0, 50000), reduced modulo 50000 elsewhere so as to be total. -/
def row (z : ℤ) : Fin 50000 := ⟨z.toNat % 50000, Nat.mod_lt _ (by decide)⟩

/-- The same among the 50176 rows the kernel's arrays have. -/
def rowP (z : ℤ) : Fin 50176 := ⟨z.toNat % 50176, Nat.mod_lt _ (by decide)⟩

theorem row_val {z : ℤ} (h0 : 0 ≤ z) (h1 : z < 50000) : (row z).val = z.toNat := by
  unfold row; simp only; exact Nat.mod_eq_of_lt (by omega)

theorem rowP_val {z : ℤ} (h0 : 0 ≤ z) (h1 : z < 50176) : (rowP z).val = z.toNat := by
  unfold rowP; simp only; exact Nat.mod_eq_of_lt (by omega)

theorem rowP_eq_row {z : ℤ} (h0 : 0 ≤ z) (h1 : z < 50000) : (rowP z).val = (row z).val := by
  rw [rowP_val h0 (by omega), row_val h0 h1]

/-- A node's row among the kernel's 50176. -/
def up (n : Fin 50000) : Fin 50176 := ⟨n.val, by have := n.isLt; omega⟩

/-- An edge or self-loop slot (850000 of them) among the kernel's 851968. -/
def upE (e : Fin 850000) : Fin 851968 := ⟨e.val, by have := e.isLt; omega⟩

end Cert.Common
-- ==== Proof.Val.KRead.lean ====
import proofs.«425610_j63256278335719_1_alg».proof.Proof.Val.KFun
import proofs.«425610_j63256278335719_1_alg».proof.Proof.Val.Common
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.Val

open Cert.KernelIdeal Cert.KernelIdeal.Gen
open Idealize.ShloMosaic Idealize.SL.Sem
open Idealize.ShloMosaic.ValueIdx Cert.Common

variable {F : FTy → Type} [FloatOps F]

/-- A concatenation of 850000 entries and 1968 more reads the first piece below 850000, -/
theorem cat_lt {α : Type} (a : S850000.Idx → α) (b : S1968.Idx → α) (e : Fin 850000) :
    concatenate S851968 0 [⟨S850000, a⟩, ⟨S1968, b⟩] concatenates_S850000_S1968_S851968_d0 (ix1 (upE e)) = a (ix1 e) :=
  concatenate_pair_apply_left (0 : Fin S851968.rank) a _ concatenates_S850000_S1968_S851968_d0 (ix1 (upE e)) rfl (ix1 e)
    (fun b => match b with | ⟨0, _⟩ => rfl)

/-- and the second from 850000 on. -/
theorem cat_ge {α : Type} (a : S850000.Idx → α) (b : S1968.Idx → α) (e : Fin 851968) (h : 850000 ≤ e.val) :
    concatenate S851968 0 [⟨S850000, a⟩, ⟨S1968, b⟩] concatenates_S850000_S1968_S851968_d0 (ix1 e)
      = b (ix1 (⟨e.val - 850000, by have := e.isLt; omega⟩ : Fin 1968)) :=
  concatenate_pair_apply_right (0 : Fin S851968.rank) a _ concatenates_S850000_S1968_S851968_d0 (ix1 e) rfl rfl _
    (fun b => match b with | ⟨0, _⟩ => fun hb => absurd rfl hb) (by show e.val - 850000 + 850000 = e.val; omega)

theorem srcP_lt (x10 : (⟨S2x800000, .i32⟩ : BufTy).Contents (Elt Ideal)) (e : Fin 850000) :
    srcP (F := Ideal) x10 (ix1 (upE e)) = Cert.ReferenceIdeal.Read.val_main_v7 (F := Ideal) x10 (ix1 e) :=
  cat_lt _ _ e

theorem dstP_lt (x10 : (⟨S2x800000, .i32⟩ : BufTy).Contents (Elt Ideal)) (e : Fin 850000) :
    dstP (F := Ideal) x10 (ix1 (upE e)) = Cert.ReferenceIdeal.Read.val_main_v8 (F := Ideal) x10 (ix1 e) :=
  cat_lt _ _ e

theorem dstP_ge (x10 : (⟨S2x800000, .i32⟩ : BufTy).Contents (Elt Ideal)) (e : Fin 851968) (h : 850000 ≤ e.val) :
    dstP (F := Ideal) x10 (ix1 e) = 50176#32 :=
  (cat_ge _ _ e h).trans rfl

theorem normP_lt (x1 : (⟨S800000x1, .f32⟩ : BufTy).Contents (Elt Ideal)) (x10 : (⟨S2x800000, .i32⟩ : BufTy).Contents (Elt Ideal))
    (e : Fin 850000) :
    normP (F := Ideal) x1 x10 (ix1 (upE e)) = Cert.ReferenceIdeal.Read.val_main_v33 (F := Ideal) x1 x10 (ix1 e) :=
  cat_lt _ _ e

theorem dstF_apply (x10 : (⟨S2x800000, .i32⟩ : BufTy).Contents (Elt Ideal)) (e : Fin 851968) :
    dstF (F := Ideal) x10 (ix1 e) = ((((dstP (F := Ideal) x10 (ix1 e)).toInt : ℤ) : ℝ) : EReal) := rfl

theorem padFn_apply (x0 : (⟨S50000x96, .f32⟩ : BufTy).Contents (Elt Ideal)) (r : Fin 50000) (k : Fin 96) :
    padFn (F := Ideal) x0 (ix2 (up r) k) = x0 (ix2 r k) := by
  unfold padFn
  exact pad_apply_of_inside ![0, 0] ![176, 0] ![0, 0] x0 _ pads_S50000x96_S50176x96_01760_000 h_S_ (ix2 (up r) k) (ix2 r k)
    (fun a => match a with
      | ⟨0, _⟩ => by show r.val = 0 + r.val * (0 + 1); omega
      | ⟨1, _⟩ => by show k.val = 0 + k.val * (0 + 1); omega)

theorem bias_apply (b : (⟨S96, .f32⟩ : BufTy).Contents (Elt Ideal)) (r : Fin 50176) (f : Fin 96) :
    broadcastInDim S50176x96 ![0, 1] bcast_S1x96_S50176x96_0_1 (broadcastInDim S1x96 ![1] bcast_S96_S1x96_1 b) (ix2 r f) = b (ix1 f) := by
  refine (broadcastInDim_apply _ bcast_S1x96_S50176x96_0_1 _ (ix2 r f) (ix2 (0 : Fin 1) f) (fun a => match a with
    | ⟨0, _⟩ => by show (0 : Nat) = if (1 : Nat) = 1 then 0 else r.val; rw [if_pos rfl]
    | ⟨1, _⟩ => by show f.val = if (96 : Nat) = 1 then 0 else f.val; rw [if_neg (by decide)])).trans ?_
  exact broadcastInDim_apply _ bcast_S96_S1x96_1 b (ix2 (0 : Fin 1) f) (ix1 f) (fun a => match a with
    | ⟨0, _⟩ => by show f.val = if (96 : Nat) = 1 then 0 else f.val; rw [if_neg (by decide)])

theorem postFn_apply (g : (⟨S50176x96, .f32⟩ : BufTy).Contents (Elt Ideal)) (b : (⟨S96, .f32⟩ : BufTy).Contents (Elt Ideal))
    (r : Fin 50176) (f : Fin 96) :
    postFn (F := Ideal) g b (ix2 r f) = max (g (ix2 r f) + b (ix1 f)) 0 := by
  unfold postFn
  rw [maximumf_apply, addf_apply, bias_apply]
  congr 1
  exact Ideal.ofBits_zero_f32

theorem tailFn_apply (g : (⟨S50176x96, .f32⟩ : BufTy).Contents (Elt Ideal)) (b : (⟨S96, .f32⟩ : BufTy).Contents (Elt Ideal))
    (r : Fin 50000) (f : Fin 96) :
    tailFn (F := Ideal) g b (ix2 r f) = g (ix2 (up r) f) + b (ix1 f) := by
  unfold tailFn
  refine (extractStridedSlice_apply ![0, 0] _ slices_S50176x96_S50000x96_0_0 (ix2 r f) (ix2 (up r) f) (fun a => match a with
    | ⟨0, _⟩ => by show r.val = 0 + r.val; omega
    | ⟨1, _⟩ => by show f.val = 0 + f.val; omega)).trans ?_
  rw [addf_apply, bias_apply]

theorem col_apply {α : Type} (v : S851968.Idx → α) (e : Fin 851968) :
    broadcastInDim S851968x1 ![0] bcast_S851968_S851968x1_0 v (ix2 e (0 : Fin 1)) = v (ix1 e) :=
  broadcastInDim_apply _ bcast_S851968_S851968x1_0 v (ix2 e (0 : Fin 1)) (ix1 e) (fun a => match a with
    | ⟨0, _⟩ => by show e.val = if (851968 : Nat) = 1 then 0 else e.val; rw [if_neg (by decide)])

theorem rows_apply {α : Type} (v : S851968.Idx → α) (e : Fin 851968) (f : Fin 96) :
    broadcastInDim S851968x96 ![0, 1] bcast_S851968x1_S851968x96_0_1 (broadcastInDim S851968x1 ![0] bcast_S851968_S851968x1_0 v) (ix2 e f)
      = v (ix1 e) := by
  refine (broadcastInDim_apply _ bcast_S851968x1_S851968x96_0_1 _ (ix2 e f) (ix2 e (0 : Fin 1)) (fun a => match a with
    | ⟨0, _⟩ => by show e.val = if (851968 : Nat) = 1 then 0 else e.val; rw [if_neg (by decide)]
    | ⟨1, _⟩ => by show (0 : Nat) = if (1 : Nat) = 1 then 0 else f.val; rw [if_pos rfl])).trans ?_
  exact col_apply v e

theorem rowAnd_apply (x : IVec S851968x1 1) (e : Fin 851968) :
    Host.reduce IntOp.andi x (constantI S_ 1 1#1) reducesTo_S851968x1_S851968_d1 h_S_ (ix1 e) = x (ix2 e (0 : Fin 1)) := by
  have hR : S851968x1.Reduces [1] S851968 := by decide
  rw [Host.reduce_eq_fold_single IntOp.andi x _ reducesTo_S851968x1_S851968_d1 hR h_S_ (ix1 e)]
  show (Finset.univ : Finset (Fin 1)).fold IntOp.andi 1#1 (fun k : Fin 1 => x (hR.lift (ix1 e) k)) = _
  rw [Finset.univ_unique, Finset.fold_singleton]
  have hl : hR.lift (ix1 e) (default : Fin 1) = ix2 e (0 : Fin 1) :=
    funext fun c => Fin.ext (by match c with | ⟨0, _⟩ => rfl | ⟨1, _⟩ => rfl)
  show IntOp.andi (x (hR.lift (ix1 e) (default : Fin 1))) 1#1 = _
  rw [hl]
  generalize x (ix2 e (0 : Fin 1)) = b
  revert b; decide

theorem gatherRows_axis0 {w : Nat} (idx : IVec S851968x1 w) (y : S851968x96.Idx) :
    gather_S50176x96_S851968x1_S851968x96_1_0_n_n_0_1_196.start y idx 0
      + gather_S50176x96_S851968x1_S851968x96_1_0_n_n_0_1_196.batchCoord y 0
      + gather_S50176x96_S851968x1_S851968x96_1_0_n_n_0_1_196.offCoord y 0
      = min (idx (ix2 (⟨(y 0).val, (y 0).isLt⟩ : Fin 851968) (0 : Fin 1))).toInt.toNat 50175 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S50176x96_S851968x1_S851968x96_1_0_n_n_0_1_196.startIndexMap from List.mem_singleton.mpr rfl)]
  have hsi : gather_S50176x96_S851968x1_S851968x96_1_0_n_n_0_1_196.siIdx y
      ⟨List.idxOf (0 : Fin 2) gather_S50176x96_S851968x1_S851968x96_1_0_n_n_0_1_196.startIndexMap,
        List.idxOf_lt_length_iff.2 (List.mem_singleton.mpr rfl)⟩ = ix2 (⟨(y 0).val, (y 0).isLt⟩ : Fin 851968) (0 : Fin 1) := by
    funext b; refine Fin.ext ?_
    match b with
    | ⟨0, _⟩ => rfl
    | ⟨1, _⟩ => rfl
  rw [hsi]
  rfl

theorem gatherRows_axis1 {w : Nat} (idx : IVec S851968x1 w) (y : S851968x96.Idx) :
    gather_S50176x96_S851968x1_S851968x96_1_0_n_n_0_1_196.start y idx 1
      + gather_S50176x96_S851968x1_S851968x96_1_0_n_n_0_1_196.batchCoord y 1
      + gather_S50176x96_S851968x1_S851968x96_1_0_n_n_0_1_196.offCoord y 1
      = (y 1).val := by
  rw [GatherDims.batchCoord_eq_zero _ _ _ List.not_mem_nil]
  unfold GatherDims.start
  rw [dif_neg (show ¬(1 : Fin 2) ∈ gather_S50176x96_S851968x1_S851968x96_1_0_n_n_0_1_196.startIndexMap by decide)]
  unfold GatherDims.offCoord
  rw [dif_pos (show (1 : Fin 2) ∈ gather_S50176x96_S851968x1_S851968x96_1_0_n_n_0_1_196.sKept by decide)]
  simp only [Nat.zero_add]
  rfl

theorem gatherRows_apply {α : Type} {w : Nat} (x : S50176x96.Idx → α) (idx : IVec S851968x1 w) (e : Fin 851968) (f : Fin 96) :
    Host.gather gather_S50176x96_S851968x1_S851968x96_1_0_n_n_0_1_196 x idx (ix2 e f)
      = x (ix2 (⟨min (idx (ix2 e (0 : Fin 1))).toInt.toNat 50175, by omega⟩ : Fin 50176) f) := by
  unfold Host.gather
  congr 1
  funext a
  refine Fin.ext ?_
  match a with
  | ⟨0, _⟩ => exact gatherRows_axis0 idx (ix2 e f)
  | ⟨1, _⟩ => exact gatherRows_axis1 idx (ix2 e f)

theorem takeIdx_apply (sp : (⟨S851968, .i32⟩ : BufTy).Contents (Elt Ideal)) (e : Fin 851968) :
    takeIdx (F := Ideal) sp (ix2 e (0 : Fin 1))
      = Scalar.select (IntOp.cmpi .slt (sp (ix1 e)) 0#32) (IntOp.addi (sp (ix1 e)) 50176#32) (sp (ix1 e)) := by
  unfold takeIdx
  rw [col_apply]
  rfl

theorem takeIdx_of_nonneg (sp : (⟨S851968, .i32⟩ : BufTy).Contents (Elt Ideal)) (e : Fin 851968) (h0 : 0 ≤ (sp (ix1 e)).toInt) :
    takeIdx (F := Ideal) sp (ix2 e (0 : Fin 1)) = sp (ix1 e) := by
  rw [takeIdx_apply]
  have hc : IntOp.cmpi .slt (sp (ix1 e)) 0#32 = 0#1 := by
    show BitVec.ofBool ((sp (ix1 e)).slt 0#32) = 0#1
    have : (sp (ix1 e)).slt 0#32 = false := by
      simp only [BitVec.slt, BitVec.toInt_zero, decide_eq_false_iff_not, not_lt]; exact h0
    rw [this]; rfl
  rw [hc, select_zero]

theorem inRange_word (x : BitVec 32) (h0 : 0 ≤ x.toInt) (h1 : x.toInt < 50176) :
    IntOp.andi (IntOp.cmpi .sge x 0#32) (IntOp.cmpi .sle x 50175#32) = 1#1 := by
  have a : IntOp.cmpi .sge x 0#32 = 1#1 := by
    show BitVec.ofBool ((0#32 : BitVec 32).sle x) = 1#1
    have : (0#32 : BitVec 32).sle x = true := by
      simp only [BitVec.sle, BitVec.toInt_zero, decide_eq_true_eq]; exact h0
    rw [this]; rfl
  have b : IntOp.cmpi .sle x 50175#32 = 1#1 := by
    show BitVec.ofBool (x.sle 50175#32) = 1#1
    have h5 : (50175#32 : BitVec 32).toInt = 50175 := by decide
    have : x.sle 50175#32 = true := by
      simp only [BitVec.sle, h5, decide_eq_true_eq]; omega
    rw [this]; rfl
  rw [a, b]; rfl

theorem takeMask_of_range (sp : (⟨S851968, .i32⟩ : BufTy).Contents (Elt Ideal)) (e : Fin 851968)
    (h0 : 0 ≤ (sp (ix1 e)).toInt) (h1 : (sp (ix1 e)).toInt < 50176) : takeMask (F := Ideal) sp (ix1 e) = 1#1 := by
  unfold takeMask
  rw [rowAnd_apply]
  show IntOp.andi (IntOp.cmpi .sge (takeIdx (F := Ideal) sp (ix2 e (0 : Fin 1))) 0#32)
    (IntOp.cmpi .sle (takeIdx (F := Ideal) sp (ix2 e (0 : Fin 1))) 50175#32) = 1#1
  rw [takeIdx_of_nonneg sp e h0]
  exact inRange_word _ h0 h1

theorem takeFn_of_range (xw : (⟨S50176x96, .f32⟩ : BufTy).Contents (Elt Ideal)) (sp : (⟨S851968, .i32⟩ : BufTy).Contents (Elt Ideal))
    (e : Fin 851968) (f : Fin 96) (h0 : 0 ≤ (sp (ix1 e)).toInt) (h1 : (sp (ix1 e)).toInt < 50176) :
    takeFn (F := Ideal) xw sp (ix2 e f) = xw (ix2 (rowP (sp (ix1 e)).toInt) f) := by
  unfold takeFn
  rw [select_apply]
  have hm : broadcastInDim S851968x96 ![0] bcast_S851968_S851968x96_0 (takeMask (F := Ideal) sp) (ix2 e f) = 1#1 :=
    (broadcastInDim_apply _ bcast_S851968_S851968x96_0 _ (ix2 e f) (ix1 e) (fun a => match a with
      | ⟨0, _⟩ => by show e.val = if (851968 : Nat) = 1 then 0 else e.val; rw [if_neg (by decide)])).trans
      (takeMask_of_range sp e h0 h1)
  rw [hm, select_one, gatherRows_apply]
  refine congrArg (fun r : Fin 50176 => xw (ix2 r f)) (Fin.ext ?_)
  show min (takeIdx (F := Ideal) sp (ix2 e (0 : Fin 1))).toInt.toNat 50175 = (rowP (sp (ix1 e)).toInt).val
  rw [takeIdx_of_nonneg sp e h0, rowP_val h0 h1]
  omega

theorem payloadFn_feat (xw : (⟨S50176x96, .f32⟩ : BufTy).Contents (Elt Ideal)) (sp : (⟨S851968, .i32⟩ : BufTy).Contents (Elt Ideal))
    (np df : (⟨S851968, .f32⟩ : BufTy).Contents (Elt Ideal)) (e : Fin 851968) (f : Fin 96)
    (h0 : 0 ≤ (sp (ix1 e)).toInt) (h1 : (sp (ix1 e)).toInt < 50176) :
    payloadFn (F := Ideal) xw sp np df (ix2 e f.castSucc) = xw (ix2 (rowP (sp (ix1 e)).toInt) f) * np (ix1 e) := by
  unfold payloadFn
  refine (concatenate_pair_apply_left (1 : Fin S851968x97.rank) _ _ concatenates_S851968x96_S851968x1_S851968x97_d1
    (ix2 e f.castSucc) rfl (ix2 e f) (fun b => match b with | ⟨0, _⟩ => rfl | ⟨1, _⟩ => rfl)).trans ?_
  rw [mulf_apply, rows_apply, takeFn_of_range xw sp e f h0 h1]

theorem payloadFn_dst (xw : (⟨S50176x96, .f32⟩ : BufTy).Contents (Elt Ideal)) (sp : (⟨S851968, .i32⟩ : BufTy).Contents (Elt Ideal))
    (np df : (⟨S851968, .f32⟩ : BufTy).Contents (Elt Ideal)) (e : Fin 851968) :
    payloadFn (F := Ideal) xw sp np df (ix2 e (Fin.last 96)) = df (ix1 e) := by
  unfold payloadFn
  refine (concatenate_pair_apply_right (1 : Fin S851968x97.rank) _ _ concatenates_S851968x96_S851968x1_S851968x97_d1
    (ix2 e (Fin.last 96)) rfl rfl (ix2 e (0 : Fin 1))
    (fun b => match b with | ⟨0, _⟩ => fun _ => rfl | ⟨1, _⟩ => fun hb => absurd rfl hb)
    (by show (0 : Nat) + 96 = 96; rfl)).trans ?_
  exact col_apply df e

theorem poolFn_ref (x0 : (⟨S50000x96, .f32⟩ : BufTy).Contents (Elt F)) (x1 : (⟨S800000x1, .f32⟩ : BufTy).Contents (Elt F))
    (x2 : (⟨S96x96, .f32⟩ : BufTy).Contents (Elt F)) (x3 : (⟨S96, .f32⟩ : BufTy).Contents (Elt F))
    (x4 : (⟨S96x96, .f32⟩ : BufTy).Contents (Elt F)) (x5 : (⟨S96, .f32⟩ : BufTy).Contents (Elt F))
    (x6 : (⟨S96x96, .f32⟩ : BufTy).Contents (Elt F)) (x7 : (⟨S96, .f32⟩ : BufTy).Contents (Elt F))
    (x8 : (⟨S96x10, .f32⟩ : BufTy).Contents (Elt F)) (x9 : (⟨S10, .f32⟩ : BufTy).Contents (Elt F))
    (x10 : (⟨S2x800000, .i32⟩ : BufTy).Contents (Elt F)) (x11 : (⟨S50000, .i32⟩ : BufTy).Contents (Elt F)) :
    Cert.ReferenceIdeal.Read.val_main_v157 (F := F) x0 x1 x2 x3 x4 x5 x6 x7 x8 x9 x10 x11
      = poolFn (F := F) (Cert.ReferenceIdeal.Read.val_main_v141 (F := F) x0 x1 x2 x3 x4 x5 x6 x7 x10) x11 x8 x9 := by
  unfold Cert.ReferenceIdeal.Read.val_main_v157 Cert.ReferenceIdeal.Read.val_main_v154 Cert.ReferenceIdeal.Read.val_main_v153
    Cert.ReferenceIdeal.Read.val_main_v144
  generalize Cert.ReferenceIdeal.Read.val_main_v141 (F := F) x0 x1 x2 x3 x4 x5 x6 x7 x10 = h
  rfl

end Cert.KernelIdeal.Val

end
-- ==== Proof.Val.LayerCore.lean ====
import proofs.«425610_j63256278335719_1_alg».proof.Proof.Val.Common
import Mathlib.Algebra.BigOperators.Fin

open Cert.Common

namespace Cert.LayerCore

theorem sum_split (g : Fin 851968 → EReal) :
    ∑ e : Fin 851968, g e = ∑ e : Fin 850000, g (upE e) + ∑ e : Fin 1968, g ⟨850000 + e.val, by have := e.isLt; omega⟩ := by
  have h := Fin.sum_univ_add (M := EReal) (a := 850000) (b := 1968) (fun i => g ⟨i.val, by have := i.isLt; omega⟩)
  simp only [Fin.val_castAdd, Fin.val_natAdd] at h
  exact h

theorem coe_int_eq_coe_nat (z : ℤ) (k : ℕ) : (((z : ℤ) : ℝ) : EReal) = (((k : ℕ) : ℝ) : EReal) ↔ z = (k : ℤ) := by
  rw [EReal.coe_eq_coe_iff]
  constructor
  · intro h
    have : ((z : ℤ) : ℝ) = (((k : ℤ)) : ℝ) := by rw [h]; simp
    exact_mod_cast this
  · intro h; rw [h]; simp

theorem masked_sum_eq (P96 Pf : Fin 851968 → EReal) (dst : Fin 850000 → ℤ) (t : Fin 850000 → EReal) (n : Fin 50000)
    (hd_lt : ∀ e : Fin 850000, P96 (upE e) = (((dst e : ℤ) : ℝ) : EReal))
    (hd_ge : ∀ e : Fin 851968, 850000 ≤ e.val → P96 e = (((50176 : ℤ) : ℝ) : EReal))
    (hf : ∀ e : Fin 850000, dst e = (n.val : ℤ) → Pf (upE e) = t e) :
    (∑ e : Fin 851968, if P96 e = (((n.val : ℕ) : ℝ) : EReal) then Pf e else 0)
      = ∑ e : Fin 850000, if dst e = (n.val : ℤ) then t e else 0 := by
  rw [sum_split]
  have htail : (∑ e : Fin 1968, if P96 ⟨850000 + e.val, by have := e.isLt; omega⟩ = (((n.val : ℕ) : ℝ) : EReal)
      then Pf ⟨850000 + e.val, by have := e.isLt; omega⟩ else 0) = 0 := by
    apply Finset.sum_eq_zero
    intro e _
    rw [hd_ge _ (by simp), if_neg]
    rw [coe_int_eq_coe_nat]
    have := n.isLt
    omega
  rw [htail, add_zero]
  apply Finset.sum_congr rfl
  intro e _
  rw [hd_lt e]
  by_cases h : dst e = (n.val : ℤ)
  · rw [if_pos ((coe_int_eq_coe_nat _ _).2 h), if_pos h, hf e h]
  · rw [if_neg (fun h' => h ((coe_int_eq_coe_nat _ _).1 h')), if_neg h]

end Cert.LayerCore
-- ==== Proof.Ref.RefLayer.lean ====
import proofs.«425610_j63256278335719_1_alg».proof.Proof.Ref.RefRun
import proofs.«425610_j63256278335719_1_alg».proof.Proof.Val.Common

noncomputable section

open scoped BigOperators

namespace Cert.ReferenceIdeal.RefValue

open Cert.ReferenceIdeal Cert.ReferenceIdeal.Gen Cert.ReferenceIdeal.Read Idealize.ShloMosaic Idealize.ShloMosaic.ValueIdx Cert.Common

section Layers
variable {F : FTy → Type} [FloatOps F]

theorem layer2_eq (x0 : (⟨S50000x96, .f32⟩ : BufTy).Contents (Elt F))
    (x1 : (⟨S800000x1, .f32⟩ : BufTy).Contents (Elt F))
    (x2 : (⟨S96x96, .f32⟩ : BufTy).Contents (Elt F))
    (x3 : (⟨S96, .f32⟩ : BufTy).Contents (Elt F))
    (x4 : (⟨S96x96, .f32⟩ : BufTy).Contents (Elt F))
    (x5 : (⟨S96, .f32⟩ : BufTy).Contents (Elt F))
    (x10 : (⟨S2x800000, .i32⟩ : BufTy).Contents (Elt F)) :
    val_main_v95 (F := F) x0 x1 x2 x3 x4 x5 x10
      = val_main_v49 (F := F) (val_main_v50 (F := F) x0 x1 x2 x3 x10) x1 x4 x5 x10 := rfl

theorem layer3_eq (x0 : (⟨S50000x96, .f32⟩ : BufTy).Contents (Elt F))
    (x1 : (⟨S800000x1, .f32⟩ : BufTy).Contents (Elt F))
    (x2 : (⟨S96x96, .f32⟩ : BufTy).Contents (Elt F))
    (x3 : (⟨S96, .f32⟩ : BufTy).Contents (Elt F))
    (x4 : (⟨S96x96, .f32⟩ : BufTy).Contents (Elt F))
    (x5 : (⟨S96, .f32⟩ : BufTy).Contents (Elt F))
    (x6 : (⟨S96x96, .f32⟩ : BufTy).Contents (Elt F))
    (x7 : (⟨S96, .f32⟩ : BufTy).Contents (Elt F))
    (x10 : (⟨S2x800000, .i32⟩ : BufTy).Contents (Elt F)) :
    val_main_v141 (F := F) x0 x1 x2 x3 x4 x5 x6 x7 x10
      = val_main_v49 (F := F) (val_main_v96 (F := F) x0 x1 x2 x3 x4 x5 x10) x1 x6 x7 x10 := rfl

end Layers

namespace Layer

theorem getElem_of_eq_singleton {α : Type} (l : List α) (a : α) (hl : l = [a]) (k : Nat) (hk : k < l.length) : l[k] = a := by
  subst hl
  have : k = 0 := by simpa using hk
  subst this; rfl

section Scatter
variable {N E C w : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hiv : d.indexVectorDim = 1)

include huw hiw hsd hiv

omit hiw hsd hiv in
theorem sc_uScatter : d.uScatter = [0] := by
  show (List.finRange 2).filter (· ∉ d.updateWindowDims) = [0]
  rw [huw]
  show (List.finRange 2).filter (fun x : Fin 2 => decide (x ∉ [(1 : Fin 2)])) = [(0 : Fin 2)]
  decide

omit huw hsd hiv in
theorem sc_sKept : d.sKept = [1] := by
  show (List.finRange 2).filter (· ∉ d.insertedWindowDims) = [1]
  rw [hiw]
  show (List.finRange 2).filter (fun x : Fin 2 => decide (x ∉ [(0 : Fin 2)])) = [(1 : Fin 2)]
  decide

omit hiw in
theorem sc_start0 (idx : IVec ⟨2, ![E, 1]⟩ w) (e : Fin E) (g : Fin C) :
    d.start (ix2 e g) idx 0 = (idx (ix2 e (0 : Fin 1))).toInt := by
  have hm : (0 : Fin 2) ∈ d.scatterDimsToOperandDims := by rw [hsd]; exact List.mem_singleton.mpr rfl
  unfold ScatterDims.start
  rw [dif_pos hm]
  congr 2
  funext b
  refine Fin.ext ?_
  match b with
  | ⟨0, _⟩ =>
    unfold ScatterDims.siIdx
    rw [dif_neg (by rw [hiv]; exact Nat.zero_ne_one)]
    unfold ScatterDims.siCoord
    simp only [Fin.val_cast]
    rw [getElem_of_eq_singleton _ _ (sc_uScatter d huw)]
    rfl
  | ⟨1, _⟩ =>
    unfold ScatterDims.siIdx
    rw [dif_pos (by rw [hiv])]
    show List.idxOf (0 : Fin 2) d.scatterDimsToOperandDims = 0
    rw [hsd]; simp

omit huw hiw hiv in
theorem sc_start1 (idx : IVec ⟨2, ![E, 1]⟩ w) (j : (⟨2, ![E, C]⟩ : Shape).Idx) :
    d.start j idx 1 = 0 := by
  unfold ScatterDims.start
  rw [dif_neg (by rw [hsd]; show (1 : Fin 2) ∉ [(0 : Fin 2)]; decide)]

omit huw hsd hiv in
theorem sc_window0 (j : (⟨2, ![E, C]⟩ : Shape).Idx) : d.window j 0 = 0 := by
  unfold ScatterDims.window
  rw [dif_neg (by rw [sc_sKept d hiw]; show (0 : Fin 2) ∉ [(1 : Fin 2)]; decide)]

omit hsd hiv in
theorem sc_window1 (e : Fin E) (g : Fin C) : d.window (ix2 e g) 1 = g.val := by
  unfold ScatterDims.window
  rw [dif_pos (by rw [sc_sKept d hiw]; show (1 : Fin 2) ∈ [(1 : Fin 2)]; decide)]
  rw [getElem_of_eq_singleton _ _ huw]
  rfl

theorem sc_resultIdx_iff (idx : IVec ⟨2, ![E, 1]⟩ w) (e : Fin E) (g f : Fin C) (n : Fin N) :
    d.resultIdx? (ix2 e g) idx = some (ix2 n f) ↔ (idx (ix2 e (0 : Fin 1))).toInt = (n.val : ℤ) ∧ g = f := by
  have s0 := sc_start0 d huw hsd hiv idx e g
  have s1 := sc_start1 d hsd idx (ix2 e g)
  have w0 := sc_window0 d hiw (ix2 e g)
  have w1 := sc_window1 d huw hiw e g
  unfold ScatterDims.resultIdx?
  split
  · rename_i h
    have h0 := h 0
    rw [s0, w0] at h0
    constructor
    · intro hs
      have hs' := Option.some.inj hs
      have e0 := congrArg (fun i => (i 0).val) hs'
      have e1 := congrArg (fun i => (i 1).val) hs'
      simp only [s0, w0, s1, w1] at e0 e1
      refine ⟨?_, Fin.ext ?_⟩
      · have : ((idx (ix2 e (0 : Fin 1))).toInt + ((0 : ℕ) : ℤ)).toNat = n.val := e0
        omega
      · have : ((0 : ℤ) + (g.val : ℤ)).toNat = f.val := e1
        omega
    · rintro ⟨hn, rfl⟩
      congr 1
      funext a
      refine Fin.ext ?_
      match a with
      | ⟨0, _⟩ =>
        show (d.start (ix2 e g) idx 0 + (d.window (ix2 e g) 0 : ℤ)).toNat = n.val
        rw [s0, w0]; omega
      | ⟨1, _⟩ =>
        show (d.start (ix2 e g) idx 1 + (d.window (ix2 e g) 1 : ℤ)).toNat = g.val
        rw [s1, w1]; omega
  · rename_i h
    constructor
    · intro hs; exact absurd hs (by simp)
    · rintro ⟨hn, rfl⟩
      exfalso; apply h
      intro a
      match a with
      | ⟨0, _⟩ =>
        show 0 ≤ d.start (ix2 e g) idx 0 + (d.window (ix2 e g) 0 : ℤ) ∧ d.start (ix2 e g) idx 0 + (d.window (ix2 e g) 0 : ℤ) < (N : ℤ)
        rw [s0, w0]; have := n.isLt; omega
      | ⟨1, _⟩ =>
        show 0 ≤ d.start (ix2 e g) idx 1 + (d.window (ix2 e g) 1 : ℤ) ∧ d.start (ix2 e g) idx 1 + (d.window (ix2 e g) 1 : ℤ) < (C : ℤ)
        rw [s1, w1]; have := g.isLt; omega

theorem sc_apply (x : (⟨2, ![N, C]⟩ : Shape).Idx → EReal) (idx : IVec ⟨2, ![E, 1]⟩ w)
    (upd : (⟨2, ![E, C]⟩ : Shape).Idx → EReal) (n : Fin N) (f : Fin C) :
    Ideal.hostScatterAdd d x idx upd (ix2 n f)
      = x (ix2 n f) + ∑ e : Fin E, if (idx (ix2 e (0 : Fin 1))).toInt = (n.val : ℤ) then upd (ix2 e f) else 0 := by
  unfold Ideal.hostScatterAdd
  congr 1
  rw [Finset.sum_filter, sum_idx2]
  refine Finset.sum_congr rfl fun e _ => ?_
  by_cases hn : (idx (ix2 e (0 : Fin 1))).toInt = (n.val : ℤ)
  · rw [if_pos hn]
    have : ∀ g : Fin C, (d.resultIdx? (ix2 e g) idx = some (ix2 n f)) ↔ g = f := fun g => by
      rw [sc_resultIdx_iff d huw hiw hsd hiv]; exact ⟨fun h => h.2, fun h => ⟨hn, h⟩⟩
    simp only [this]
    rw [Finset.sum_ite_eq' Finset.univ f (fun g => upd (ix2 e g)), if_pos (Finset.mem_univ _)]
  · rw [if_neg hn]
    refine Finset.sum_eq_zero fun g _ => ?_
    rw [if_neg]
    rw [sc_resultIdx_iff d huw hiw hsd hiv]
    exact fun h => hn h.1

end Scatter

section Gather
variable {α : Type} {N E C w : Nat} (d : GatherDims ⟨2, ![N, C]⟩ ⟨2, ![E, 1]⟩ ⟨2, ![E, C]⟩)
  (hod : d.offsetDims = [1]) (hcd : d.collapsedSliceDims = [0]) (hob : d.operandBatchingDims = [])
  (hsm : d.startIndexMap = [0]) (hiv : d.indexVectorDim = 1)

include hod hcd hob hsm hiv

omit hcd hob hsm hiv in
theorem ga_batchDims : d.batchDims = [0] := by
  show (List.finRange 2).filter (· ∉ d.offsetDims) = [0]
  rw [hod]
  show (List.finRange 2).filter (fun x : Fin 2 => decide (x ∉ [(1 : Fin 2)])) = [(0 : Fin 2)]
  decide

theorem ga_apply (x : (⟨2, ![N, C]⟩ : Shape).Idx → α) (idx : IVec ⟨2, ![E, 1]⟩ w) (e : Fin E) (f : Fin C) (r : Fin N)
    (hr : r.val = min (idx (ix2 e (0 : Fin 1))).toInt.toNat (N - 1)) :
    Host.gather d x idx (ix2 e f) = x (ix2 r f) := by
  have hb : ∀ a : Fin 2, a ∉ d.operandBatchingDims := fun a => by rw [hob]; exact List.not_mem_nil
  have hm0 : (0 : Fin 2) ∈ d.startIndexMap := by rw [hsm]; exact List.mem_singleton.mpr rfl
  have hm1 : (1 : Fin 2) ∉ d.startIndexMap := by rw [hsm]; show (1 : Fin 2) ∉ [(0 : Fin 2)]; decide
  have hk0 : (0 : Fin 2) ∉ d.sKept := by
    rw [GatherDims.mem_sKept, hcd]; exact fun h => h.1 (List.mem_singleton.mpr rfl)
  have hk1 : (1 : Fin 2) ∈ d.sKept := by
    rw [GatherDims.mem_sKept, hcd]; exact ⟨by show (1 : Fin 2) ∉ [(0 : Fin 2)]; decide, hb 1⟩
  have hsl : d.sliceSizes 0 = 1 := d.slice_collapsed 0 (by rw [hcd]; exact List.mem_singleton.mpr rfl)
  unfold Host.gather
  congr 1
  funext a
  refine Fin.ext ?_
  match a with
  | ⟨0, _⟩ =>
    show d.start (ix2 e f) idx 0 + d.batchCoord (ix2 e f) 0 + d.offCoord (ix2 e f) 0 = r.val
    rw [hr]
    rw [GatherDims.batchCoord_eq_zero _ _ _ (hb 0), GatherDims.offCoord_eq_zero _ _ _ hk0]
    simp only [Nat.add_zero]
    unfold GatherDims.start
    rw [dif_pos hm0]
    show min _ (N - d.sliceSizes 0) = _
    rw [hsl]
    congr 3
    congr 1
    funext b
    refine Fin.ext ?_
    match b with
    | ⟨0, _⟩ =>
      unfold GatherDims.siIdx
      rw [dif_neg (by rw [hiv]; exact Nat.zero_ne_one)]
      unfold GatherDims.siCoord
      simp only [Fin.val_cast]
      rw [getElem_of_eq_singleton _ _ (ga_batchDims d hod)]
      rfl
    | ⟨1, _⟩ =>
      unfold GatherDims.siIdx
      rw [dif_pos (by rw [hiv])]
      show List.idxOf (0 : Fin 2) d.startIndexMap = 0
      rw [hsm]; simp
  | ⟨1, _⟩ =>
    show d.start (ix2 e f) idx 1 + d.batchCoord (ix2 e f) 1 + d.offCoord (ix2 e f) 1 = f.val
    rw [GatherDims.batchCoord_eq_zero _ _ _ (hb 1)]
    unfold GatherDims.start
    rw [dif_neg hm1]
    unfold GatherDims.offCoord
    rw [dif_pos hk1]
    rw [getElem_of_eq_singleton _ _ hod]
    simp only [Nat.zero_add, Nat.add_zero]
    rfl

end Gather

theorem cmpi_slt_zero (c : BitVec 32) (h0 : 0 ≤ c.toInt) : IntOp.cmpi .slt c 0#32 = 0#1 := by
  refine eq_zero_of_ne_one fun hlt => ?_
  have h := IntOp.cmpi_slt.1 hlt
  have z : (0#32 : BitVec 32).toInt = 0 := by decide
  omega

theorem row_clamp (z : ℤ) (h0 : 0 ≤ z) (h1 : z < 50000) : (row z).val = min z.toNat (50000 - 1) := by
  rw [row_val h0 h1]; omega

theorem gather_row {α : Type} (d : GatherDims ⟨2, ![50000, 96]⟩ ⟨2, ![850000, 1]⟩ ⟨2, ![850000, 96]⟩)
    (hod : d.offsetDims = [1]) (hcd : d.collapsedSliceDims = [0]) (hob : d.operandBatchingDims = [])
    (hsm : d.startIndexMap = [0]) (hiv : d.indexVectorDim = 1)
    (x : (⟨2, ![50000, 96]⟩ : Shape).Idx → α) (idx : IVec ⟨2, ![850000, 1]⟩ 32) (e : Fin 850000) (f : Fin 96)
    (c : BitVec 32) (hc : idx (ix2 e (0 : Fin 1)) = c) (h0 : 0 ≤ c.toInt) (h1 : c.toInt < 50000) :
    Host.gather d x idx (ix2 e f) = x (ix2 (row c.toInt) f) :=
  ga_apply d hod hcd hob hsm hiv x idx e f (row c.toInt) (by rw [hc]; exact row_clamp _ h0 h1)

theorem scatter_rows (d : ScatterDims ⟨2, ![50000, 96]⟩ ⟨2, ![850000, 1]⟩ ⟨2, ![850000, 96]⟩)
    (huw : d.updateWindowDims = [1]) (hiw : d.insertedWindowDims = [0])
    (hsd : d.scatterDimsToOperandDims = [0]) (hiv : d.indexVectorDim = 1)
    (x : FVec Ideal ⟨2, ![50000, 96]⟩ .f32) (idx : IVec ⟨2, ![850000, 1]⟩ 32) (upd : FVec Ideal ⟨2, ![850000, 96]⟩ .f32)
    (n : Fin 50000) (f : Fin 96) :
    Host.scatterAdd d x idx upd (ix2 n f)
      = x (ix2 n f) + ∑ e : Fin 850000, if (idx (ix2 e (0 : Fin 1))).toInt = (n.val : ℤ) then upd (ix2 e f) else 0 :=
  sc_apply d huw hiw hsd hiv x idx upd n f

section Stages
variable (h : (⟨S50000x96, .f32⟩ : BufTy).Contents (Elt Ideal)) (x1 : (⟨S800000x1, .f32⟩ : BufTy).Contents (Elt Ideal))
  (W : (⟨S96x96, .f32⟩ : BufTy).Contents (Elt Ideal)) (b : (⟨S96, .f32⟩ : BufTy).Contents (Elt Ideal))
  (x10 : (⟨S2x800000, .i32⟩ : BufTy).Contents (Elt Ideal))

theorem dst_col (e : Fin 850000) :
    val_main_v45 (F := Ideal) x10 (ix2 e (0 : Fin 1)) = val_main_v8 (F := Ideal) x10 (ix1 e) := by
  rw [val_main_v45_apply]
  exact congrArg _ (funext fun a => Fin.ext (by match a with | ⟨0, _⟩ => rfl))

theorem src_col (e : Fin 850000) (h0 : 0 ≤ (val_main_v7 (F := Ideal) x10 (ix1 e)).toInt) :
    val_main_v40 (F := Ideal) x10 (ix2 e (0 : Fin 1)) = val_main_v7 (F := Ideal) x10 (ix1 e) := by
  have ei : idx_main_v40 (ix2 e (0 : Fin 1)) = ix1 e := funext fun a => Fin.ext (by match a with | ⟨0, _⟩ => rfl)
  rw [val_main_v40_apply, ei, val_main_v39_apply, val_main_v36_apply]
  rw [val_main_v35_apply, val_main_c_6_apply, cmpi_slt_zero _ h0, select_zero]

theorem norm_row (e : Fin 850000) (f : Fin 96) :
    val_main_v42 (F := Ideal) x1 x10 (ix2 e f) = val_main_v33 (F := Ideal) x1 x10 (ix1 e) := by
  rw [val_main_v42_apply, val_main_v34_apply]
  exact congrArg _ (funext fun a => Fin.ext (by match a with | ⟨0, _⟩ => rfl))

theorem bias_row (n : Fin 50000) (f : Fin 96) : val_main_v48 (F := Ideal) b (ix2 n f) = b (ix1 f) := by
  rw [val_main_v48_apply, val_main_v47_apply]
  exact congrArg _ (funext fun a => Fin.ext (by match a with | ⟨0, _⟩ => rfl))

theorem zeros_at (n : Fin 50000) (f : Fin 96) : val_main_v44 (F := Ideal) (ix2 n f) = 0 := by
  rw [val_main_v44_apply, val_main_cst_8_apply]
  exact Ideal.ofBits_zero_f32

theorem xw_at (r : Fin 50000) (f : Fin 96) :
    val_main_v5 (F := Ideal) h W (ix2 r f) = ∑ k : Fin 96, h (ix2 r k) * W (ix2 k f) := by
  rw [val_main_v5_apply]
  refine Finset.sum_congr rfl fun k _ => ?_
  have el : lidx_main_v5 (ix2 r f) k = ix2 r k := funext fun a => Fin.ext (by match a with | ⟨0, _⟩ => rfl | ⟨1, _⟩ => rfl)
  have er : ridx_main_v5 (ix2 r f) k = ix2 k f := funext fun a => Fin.ext (by match a with | ⟨0, _⟩ => rfl | ⟨1, _⟩ => rfl)
  rw [el, er]

theorem gathered_at (e : Fin 850000) (f : Fin 96)
    (hs : 0 ≤ (val_main_v7 (F := Ideal) x10 (ix1 e)).toInt ∧ (val_main_v7 (F := Ideal) x10 (ix1 e)).toInt < 50000) :
    val_main_v41 (F := Ideal) h W x10 (ix2 e f)
      = ∑ k : Fin 96, h (ix2 (row (val_main_v7 (F := Ideal) x10 (ix1 e)).toInt) k) * W (ix2 k f) := by
  unfold val_main_v41
  exact (gather_row gather_S50000x96_S850000x1_S850000x96_1_0_n_n_0_1_196 rfl rfl rfl rfl rfl
    (val_main_v5 (F := Ideal) h W) (val_main_v40 (F := Ideal) x10) e f (val_main_v7 (F := Ideal) x10 (ix1 e))
    (src_col x10 e hs.1) hs.1 hs.2).trans (xw_at h W _ f)

end Stages

end Layer

open Layer

section
variable (h : (⟨S50000x96, .f32⟩ : BufTy).Contents (Elt Ideal)) (x1 : (⟨S800000x1, .f32⟩ : BufTy).Contents (Elt Ideal))
  (W : (⟨S96x96, .f32⟩ : BufTy).Contents (Elt Ideal)) (b : (⟨S96, .f32⟩ : BufTy).Contents (Elt Ideal))
  (x10 : (⟨S2x800000, .i32⟩ : BufTy).Contents (Elt Ideal))

theorem layer_apply
    (hsrc : ∀ e : Fin 850000, 0 ≤ (val_main_v7 (F := Ideal) x10 (ix1 e)).toInt ∧ (val_main_v7 (F := Ideal) x10 (ix1 e)).toInt < 50000)
    (n : Fin 50000) (f : Fin 96) :
    val_main_v49 (F := Ideal) h x1 W b x10 (ix2 n f)
      = (∑ e : Fin 850000, if (val_main_v8 (F := Ideal) x10 (ix1 e)).toInt = (n.val : ℤ)
          then val_main_v33 (F := Ideal) x1 x10 (ix1 e)
            * ∑ k : Fin 96, h (ix2 (row (val_main_v7 (F := Ideal) x10 (ix1 e)).toInt) k) * W (ix2 k f)
          else 0) + b (ix1 f) := by
  rw [val_main_v49_apply, Ideal.addf_def, bias_row]
  refine congrArg (fun t : EReal => t + b (ix1 f)) ?_
  unfold val_main_v46
  refine (scatter_rows scatter_S50000x96_S850000x1_S850000x96_1_0_0_1 rfl rfl rfl rfl (val_main_v44 (F := Ideal))
    (val_main_v45 (F := Ideal) x10) (val_main_v43 (F := Ideal) h x1 W x10) n f).trans ?_
  rw [zeros_at, zero_add]
  refine Finset.sum_congr rfl fun e _ => ?_
  rw [dst_col, val_main_v43_apply, Ideal.mulf_def, norm_row, gathered_at h W x10 e f (hsrc e)]

end

end Cert.ReferenceIdeal.RefValue

end
-- ==== Proof.Val.Layer.lean ====
import proofs.«425610_j63256278335719_1_alg».proof.Proof.Val.KRead
import proofs.«425610_j63256278335719_1_alg».proof.Proof.Val.LayerCore
import proofs.«425610_j63256278335719_1_alg».proof.Proof.Ref.RefLayer

noncomputable section

namespace Cert.KernelIdeal.Val

open Cert.KernelIdeal Cert.KernelIdeal.Gen Idealize.ShloMosaic Idealize.ShloMosaic.ValueIdx Cert.Common
open Cert.ReferenceIdeal.Read

theorem rowP_up {z : ℤ} (h0 : 0 ≤ z) (h1 : z < 50000) : rowP z = up (row z) :=
  Fin.ext (rowP_eq_row h0 h1)

theorem toInt_pad_dst : (50176#32 : BitVec 32).toInt = 50176 := by decide

theorem toInt_pad_src : (0#32 : BitVec 32).toInt = 0 := by decide

theorem layer_bridge
    (hK xwK : (⟨S50176x96, .f32⟩ : BufTy).Contents (Elt Ideal)) (hR : (⟨S50000x96, .f32⟩ : BufTy).Contents (Elt Ideal))
    (W : (⟨S96x96, .f32⟩ : BufTy).Contents (Elt Ideal)) (b : (⟨S96, .f32⟩ : BufTy).Contents (Elt Ideal))
    (x1 : (⟨S800000x1, .f32⟩ : BufTy).Contents (Elt Ideal)) (x10 : (⟨S2x800000, .i32⟩ : BufTy).Contents (Elt Ideal))
    (hrows : ∀ (r : Fin 50000) (k : Fin 96), hK (ix2 (up r) k) = hR (ix2 r k))
    (hxw : ∀ (r : Fin 50176) (f : Fin 96), xwK (ix2 r f) = ∑ k : Fin 96, hK (ix2 r k) * W (ix2 k f))
    (hsrc : ∀ e : Fin 850000, 0 ≤ (val_main_v7 (F := Ideal) x10 (ix1 e)).toInt ∧ (val_main_v7 (F := Ideal) x10 (ix1 e)).toInt < 50000)
    (n : Fin 50000) (f : Fin 96) :
    (∑ e : Fin 851968,
        if payloadFn (F := Ideal) xwK (srcP x10) (normP x1 x10) (dstF x10) (ix2 e (Fin.last 96)) = (((n.val : ℕ) : ℝ) : EReal)
        then payloadFn (F := Ideal) xwK (srcP x10) (normP x1 x10) (dstF x10) (ix2 e f.castSucc) else 0) + b (ix1 f)
      = val_main_v49 (F := Ideal) hR x1 W b x10 (ix2 n f) := by
  refine Eq.trans ?_ (Cert.ReferenceIdeal.RefValue.layer_apply hR x1 W b x10 hsrc n f).symm
  refine congrArg (fun s : EReal => s + b (ix1 f)) ?_
  refine Cert.LayerCore.masked_sum_eq _ _ (fun e => (val_main_v8 (F := Ideal) x10 (ix1 e)).toInt) _ n ?_ ?_ ?_
  · intro e
    rw [payloadFn_dst, dstF_apply, dstP_lt]
  · intro e he
    rw [payloadFn_dst, dstF_apply, dstP_ge x10 e he, toInt_pad_dst]
  · intro e _
    have hs := hsrc e
    have hsp : srcP (F := Ideal) x10 (ix1 (upE e)) = val_main_v7 (F := Ideal) x10 (ix1 e) := srcP_lt x10 e
    have h1' : (val_main_v7 (F := Ideal) x10 (ix1 e)).toInt < 50176 := lt_trans hs.2 (by decide)
    rw [payloadFn_feat xwK (srcP x10) (normP x1 x10) (dstF x10) (upE e) f (by rw [hsp]; exact hs.1) (by rw [hsp]; exact h1'),
      hsp, normP_lt, hxw, rowP_up hs.1 hs.2, mul_comm]
    congr 1
    exact Finset.sum_congr rfl fun k _ => by rw [hrows]

end Cert.KernelIdeal.Val

end
-- ==== Proof.Ref.RefRelu.lean ====
import proofs.«425610_j63256278335719_1_alg».proof.Proof.Ref.RefRun
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

theorem relu1_apply (x0 : (⟨S50000x96, .f32⟩ : BufTy).Contents (Elt Ideal)) (x1 : (⟨S800000x1, .f32⟩ : BufTy).Contents (Elt Ideal))
    (x2 : (⟨S96x96, .f32⟩ : BufTy).Contents (Elt Ideal)) (x3 : (⟨S96, .f32⟩ : BufTy).Contents (Elt Ideal))
    (x10 : (⟨S2x800000, .i32⟩ : BufTy).Contents (Elt Ideal)) (i : S50000x96.Idx) :
    val_main_v50 (F := Ideal) x0 x1 x2 x3 x10 i = max (val_main_v49 (F := Ideal) x0 x1 x2 x3 x10 i) 0 := by
  rw [val_main_v50_apply, val_main_call1_v0_apply, val_main_call1_cst_apply]
  show max _ _ = _
  congr 1
  exact Ideal.ofBits_zero_f32

theorem relu2_apply (x0 : (⟨S50000x96, .f32⟩ : BufTy).Contents (Elt Ideal)) (x1 : (⟨S800000x1, .f32⟩ : BufTy).Contents (Elt Ideal))
    (x2 : (⟨S96x96, .f32⟩ : BufTy).Contents (Elt Ideal)) (x3 : (⟨S96, .f32⟩ : BufTy).Contents (Elt Ideal))
    (x4 : (⟨S96x96, .f32⟩ : BufTy).Contents (Elt Ideal)) (x5 : (⟨S96, .f32⟩ : BufTy).Contents (Elt Ideal))
    (x10 : (⟨S2x800000, .i32⟩ : BufTy).Contents (Elt Ideal)) (i : S50000x96.Idx) :
    val_main_v96 (F := Ideal) x0 x1 x2 x3 x4 x5 x10 i = max (val_main_v95 (F := Ideal) x0 x1 x2 x3 x4 x5 x10 i) 0 := by
  rw [val_main_v96_apply, val_main_call3_v0_apply, val_main_call3_cst_apply]
  show max _ _ = _
  congr 1
  exact Ideal.ofBits_zero_f32

end Cert.ReferenceIdeal.RefValue

end
-- ==== Proof.Val.KernelValue.lean ====
import proofs.«425610_j63256278335719_1_alg».proof.Proof.KI.Run
import proofs.«425610_j63256278335719_1_alg».proof.Proof.Val.KFold
import proofs.«425610_j63256278335719_1_alg».proof.Proof.Val.MmValue0
import proofs.«425610_j63256278335719_1_alg».proof.Proof.Val.MmValue2
import proofs.«425610_j63256278335719_1_alg».proof.Proof.Val.MmValue4
import proofs.«425610_j63256278335719_1_alg».proof.Proof.Val.AggValue1
import proofs.«425610_j63256278335719_1_alg».proof.Proof.Val.AggValue3
import proofs.«425610_j63256278335719_1_alg».proof.Proof.Val.AggValue5
import proofs.«425610_j63256278335719_1_alg».proof.Proof.Val.Layer
import proofs.«425610_j63256278335719_1_alg».proof.Proof.Ref.RefRelu

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx Cert.Common
open Cert.ReferenceIdeal.Read Cert.ReferenceIdeal.RefValue

variable (m : (ℓ : Loc nD τ sig) → Buf (Elt Ideal) ℓ) (ρ : Dev nD → PrngReg) (c : Dev nD)

abbrev a0 : (⟨S50000x96, .f32⟩ : BufTy).Contents (Elt Ideal) := m ((c : Thread nD τ).loc main_arg0)
abbrev a1 : (⟨S800000x1, .f32⟩ : BufTy).Contents (Elt Ideal) := m ((c : Thread nD τ).loc main_arg1)
abbrev a2 : (⟨S96x96, .f32⟩ : BufTy).Contents (Elt Ideal) := m ((c : Thread nD τ).loc main_arg2)
abbrev a3 : (⟨S96, .f32⟩ : BufTy).Contents (Elt Ideal) := m ((c : Thread nD τ).loc main_arg3)
abbrev a4 : (⟨S96x96, .f32⟩ : BufTy).Contents (Elt Ideal) := m ((c : Thread nD τ).loc main_arg4)
abbrev a5 : (⟨S96, .f32⟩ : BufTy).Contents (Elt Ideal) := m ((c : Thread nD τ).loc main_arg5)
abbrev a6 : (⟨S96x96, .f32⟩ : BufTy).Contents (Elt Ideal) := m ((c : Thread nD τ).loc main_arg6)
abbrev a7 : (⟨S96, .f32⟩ : BufTy).Contents (Elt Ideal) := m ((c : Thread nD τ).loc main_arg7)
abbrev a8 : (⟨S96x10, .f32⟩ : BufTy).Contents (Elt Ideal) := m ((c : Thread nD τ).loc main_arg8)
abbrev a9 : (⟨S10, .f32⟩ : BufTy).Contents (Elt Ideal) := m ((c : Thread nD τ).loc main_arg9)
abbrev a10 : (⟨S2x800000, .i32⟩ : BufTy).Contents (Elt Ideal) := m ((c : Thread nD τ).loc main_arg10)
abbrev a11 : (⟨S50000, .i32⟩ : BufTy).Contents (Elt Ideal) := m ((c : Thread nD τ).loc main_arg11)

abbrev xw1 : (⟨S50176x96, .f32⟩ : BufTy).Contents (Elt Ideal) := V5 m ρ c main_v41
abbrev g1 : (⟨S50176x96, .f32⟩ : BufTy).Contents (Elt Ideal) := V8 m ρ c main_v48
abbrev h1 : (⟨S50176x96, .f32⟩ : BufTy).Contents (Elt Ideal) := V10 m ρ c main_v52
abbrev xw2 : (⟨S50176x96, .f32⟩ : BufTy).Contents (Elt Ideal) := V11 m ρ c main_v53
abbrev g2 : (⟨S50176x96, .f32⟩ : BufTy).Contents (Elt Ideal) := V14 m ρ c main_v60
abbrev h2 : (⟨S50176x96, .f32⟩ : BufTy).Contents (Elt Ideal) := V16 m ρ c main_v64
abbrev xw3 : (⟨S50176x96, .f32⟩ : BufTy).Contents (Elt Ideal) := V17 m ρ c main_v65
abbrev g3 : (⟨S50176x96, .f32⟩ : BufTy).Contents (Elt Ideal) := V20 m ρ c main_v72

abbrev p1 : Vec Ideal S851968x97 .f32 := V7 m ρ c main_v47
abbrev p2 : Vec Ideal S851968x97 .f32 := V13 m ρ c main_v59
abbrev p3 : Vec Ideal S851968x97 .f32 := V19 m ρ c main_v71

omit m ρ c in

theorem layer_step
    (hK xw g : (⟨S50176x96, .f32⟩ : BufTy).Contents (Elt Ideal)) (P : Vec Ideal S851968x97 .f32)
    (hR : (⟨S50000x96, .f32⟩ : BufTy).Contents (Elt Ideal))
    (W : (⟨S96x96, .f32⟩ : BufTy).Contents (Elt Ideal)) (b : (⟨S96, .f32⟩ : BufTy).Contents (Elt Ideal))
    (x1 : (⟨S800000x1, .f32⟩ : BufTy).Contents (Elt Ideal)) (x10 : (⟨S2x800000, .i32⟩ : BufTy).Contents (Elt Ideal))
    (hrows : ∀ (r : Fin 50000) (k : Fin 96), hK (ix2 (up r) k) = hR (ix2 r k))
    (hxw : ∀ (r : Fin 50176) (f : Fin 96), xw (ix2 r f) = ∑ k : Fin 96, hK (ix2 r k) * W (ix2 k f))
    (hP : P = payloadFn (F := Ideal) xw (srcP x10) (normP x1 x10) (dstF x10))
    (hg : g = aggSum P)
    (hsrc : ∀ e : Fin 850000, 0 ≤ (val_main_v7 (F := Ideal) x10 (ix1 e)).toInt ∧ (val_main_v7 (F := Ideal) x10 (ix1 e)).toInt < 50000)
    (n : Fin 50000) (f : Fin 96) :
    g (ix2 (up n) f) + b (ix1 f) = val_main_v49 (F := Ideal) hR x1 W b x10 (ix2 n f) := by
  have hgn : g (ix2 (up n) f) = ∑ e : Fin 851968, (if P (ix2 e (Fin.last 96)) = (((n.val : ℕ) : ℝ) : EReal) then P (ix2 e f.castSucc) else 0) := by
    rw [hg]; rfl
  rw [hgn]
  subst hP
  exact layer_bridge hK xw hR W b x1 x10 hrows hxw hsrc n f

omit m ρ c in

theorem post_rows (g : (⟨S50176x96, .f32⟩ : BufTy).Contents (Elt Ideal)) (b : (⟨S96, .f32⟩ : BufTy).Contents (Elt Ideal))
    (v : EReal) (n : Fin 50000) (f : Fin 96) (h : g (ix2 (up n) f) + b (ix1 f) = v) :
    postFn (F := Ideal) g b (ix2 (up n) f) = max v 0 := by
  rw [postFn_apply, h]

variable (hsrc : ∀ e : Fin 850000, 0 ≤ (val_main_v7 (F := Ideal) (a10 m c) (ix1 e)).toInt ∧ (val_main_v7 (F := Ideal) (a10 m c) (ix1 e)).toInt < 50000)

set_option maxHeartbeats 1000000 in

theorem xw1_eq : xw1 m ρ c = mm0_G (padFn (F := Ideal) (a0 m c)) (a2 m c) := by
  have h3 : mm0_G (V4 m ρ c (Pipeline.arrRef spec0 0)) (V4 m ρ c (Pipeline.arrRef spec0 1)) = mm0_G (padFn (F := Ideal) (a0 m c)) (a2 m c) := by
    show mm0_G (V4 m ρ c main_v40) (V4 m ρ c main_arg2) = _
    rw [V4_v40 m ρ c, V4_arg2 m ρ c]
  exact (hF0 m ρ c 2).symm.trans ((mm0_final (V4 m ρ) c).trans h3)

set_option maxHeartbeats 1000000 in

theorem g1_eq : g1 m ρ c = aggSum (p1 m ρ c) :=
  (hF1 m ρ c 1).symm.trans (agg1_final (V7 m ρ) c)

include hsrc in
set_option maxHeartbeats 1000000 in
theorem L1 (n : Fin 50000) (f : Fin 96) : g1 m ρ c (ix2 (up n) f) + a3 m c (ix1 f)
    = val_main_v49 (F := Ideal) (a0 m c) (a1 m c) (a2 m c) (a3 m c) (a10 m c) (ix2 n f) :=
  layer_step (padFn (F := Ideal) (a0 m c)) (xw1 m ρ c) (g1 m ρ c) (p1 m ρ c) (a0 m c) (a2 m c) (a3 m c) (a1 m c) (a10 m c)
    (fun r k => padFn_apply (a0 m c) r k) (fun r f => by rw [xw1_eq, mm0_G_apply]) (V7_v47 m ρ c) (g1_eq m ρ c) hsrc n f

include hsrc in
set_option maxHeartbeats 1000000 in
theorem rows2 (r : Fin 50000) (k : Fin 96) : h1 m ρ c (ix2 (up r) k)
    = val_main_v50 (F := Ideal) (a0 m c) (a1 m c) (a2 m c) (a3 m c) (a10 m c) (ix2 r k) := by
  rw [show h1 m ρ c = postFn (F := Ideal) (g1 m ρ c) (a3 m c) from V10_v52 m ρ c, post_rows _ _ _ r k (L1 m ρ c hsrc r k), relu1_apply]

set_option maxHeartbeats 1000000 in
theorem xw2_eq : xw2 m ρ c = mm2_G (h1 m ρ c) (a4 m c) := by
  have h3 : mm2_G (V10 m ρ c (Pipeline.arrRef spec2 0)) (V10 m ρ c (Pipeline.arrRef spec2 1)) = mm2_G (h1 m ρ c) (a4 m c) := by
    show mm2_G (V10 m ρ c main_v52) (V10 m ρ c main_arg4) = _
    rw [V10_arg4 m ρ c]
  exact (hF2 m ρ c 2).symm.trans ((mm2_final (V10 m ρ) c).trans h3)

set_option maxHeartbeats 1000000 in
theorem g2_eq : g2 m ρ c = aggSum (p2 m ρ c) :=
  (hF3 m ρ c 1).symm.trans (agg3_final (V13 m ρ) c)

include hsrc in
set_option maxHeartbeats 1000000 in
theorem L2 (n : Fin 50000) (f : Fin 96) : g2 m ρ c (ix2 (up n) f) + a5 m c (ix1 f)
    = val_main_v95 (F := Ideal) (a0 m c) (a1 m c) (a2 m c) (a3 m c) (a4 m c) (a5 m c) (a10 m c) (ix2 n f) :=
  (layer_step (h1 m ρ c) (xw2 m ρ c) (g2 m ρ c) (p2 m ρ c) (val_main_v50 (F := Ideal) (a0 m c) (a1 m c) (a2 m c) (a3 m c) (a10 m c)) (a4 m c) (a5 m c) (a1 m c) (a10 m c)
    (rows2 m ρ c hsrc) (fun r f => by rw [xw2_eq, mm2_G_apply]) (V13_v59 m ρ c) (g2_eq m ρ c) hsrc n f).trans
    (congrFun (layer2_eq (F := Ideal) (a0 m c) (a1 m c) (a2 m c) (a3 m c) (a4 m c) (a5 m c) (a10 m c)).symm (ix2 n f))

include hsrc in
set_option maxHeartbeats 1000000 in
theorem rows3 (r : Fin 50000) (k : Fin 96) : h2 m ρ c (ix2 (up r) k)
    = val_main_v96 (F := Ideal) (a0 m c) (a1 m c) (a2 m c) (a3 m c) (a4 m c) (a5 m c) (a10 m c) (ix2 r k) := by
  rw [show h2 m ρ c = postFn (F := Ideal) (g2 m ρ c) (a5 m c) from V16_v64 m ρ c, post_rows _ _ _ r k (L2 m ρ c hsrc r k), relu2_apply]

set_option maxHeartbeats 1000000 in
theorem xw3_eq : xw3 m ρ c = mm4_G (h2 m ρ c) (a6 m c) := by
  have h3 : mm4_G (V16 m ρ c (Pipeline.arrRef spec4 0)) (V16 m ρ c (Pipeline.arrRef spec4 1)) = mm4_G (h2 m ρ c) (a6 m c) := by
    show mm4_G (V16 m ρ c main_v64) (V16 m ρ c main_arg6) = _
    rw [V16_arg6 m ρ c]
  exact (hF4 m ρ c 2).symm.trans ((mm4_final (V16 m ρ) c).trans h3)

set_option maxHeartbeats 1000000 in
theorem g3_eq : g3 m ρ c = aggSum (p3 m ρ c) :=
  (hF5 m ρ c 1).symm.trans (agg5_final (V19 m ρ) c)

include hsrc in
set_option maxHeartbeats 1000000 in
theorem L3 (n : Fin 50000) (f : Fin 96) : g3 m ρ c (ix2 (up n) f) + a7 m c (ix1 f)
    = val_main_v141 (F := Ideal) (a0 m c) (a1 m c) (a2 m c) (a3 m c) (a4 m c) (a5 m c) (a6 m c) (a7 m c) (a10 m c) (ix2 n f) :=
  (layer_step (h2 m ρ c) (xw3 m ρ c) (g3 m ρ c) (p3 m ρ c) (val_main_v96 (F := Ideal) (a0 m c) (a1 m c) (a2 m c) (a3 m c) (a4 m c) (a5 m c) (a10 m c)) (a6 m c) (a7 m c) (a1 m c) (a10 m c)
    (rows3 m ρ c hsrc) (fun r f => by rw [xw3_eq, mm4_G_apply]) (V19_v71 m ρ c) (g3_eq m ρ c) hsrc n f).trans
    (congrFun (layer3_eq (F := Ideal) (a0 m c) (a1 m c) (a2 m c) (a3 m c) (a4 m c) (a5 m c) (a6 m c) (a7 m c) (a10 m c)).symm (ix2 n f))

include hsrc in
theorem tail_eq : tailFn (F := Ideal) (g3 m ρ c) (a7 m c)
    = val_main_v141 (F := Ideal) (a0 m c) (a1 m c) (a2 m c) (a3 m c) (a4 m c) (a5 m c) (a6 m c) (a7 m c) (a10 m c) := by
  funext i
  obtain ⟨n, f, rfl⟩ : ∃ (n : Fin 50000) (f : Fin 96), i = ix2 n f := ⟨i 0, i 1, eq_ix2 i⟩
  rw [tailFn_apply, L3 m ρ c hsrc n f]

include hsrc in
set_option maxHeartbeats 1000000 in

theorem kernel_value :
    V21 m ρ c main_v92 = val_main_v157 (F := Ideal) (a0 m c) (a1 m c) (a2 m c) (a3 m c) (a4 m c) (a5 m c) (a6 m c) (a7 m c) (a8 m c) (a9 m c) (a10 m c) (a11 m c) :=
  (V21_v92 m ρ c).trans ((congrArg (fun h => poolFn (F := Ideal) h (a11 m c) (a8 m c) (a9 m c)) (tail_eq m ρ c hsrc)).trans
    (poolFn_ref (F := Ideal) (a0 m c) (a1 m c) (a2 m c) (a3 m c) (a4 m c) (a5 m c) (a6 m c) (a7 m c) (a8 m c) (a9 m c) (a10 m c) (a11 m c)).symm)

end Cert.KernelIdeal.Val

end
-- ==== Proof.Ref.PreRange.lean ====
import proofs.«425610_j63256278335719_1_alg».proof.Proof.Ref.RefRun
import proofs.«425610_j63256278335719_1_alg».proof.Proof.Val.Common
import proofs.«425610_j63256278335719_1_alg».proof.Pre_finite_inputs
import proofs.«425610_j63256278335719_1_alg».proof.Proof.Gen.Pre_finite_inputs
import Idealize.ShloMosaic.Lib.ReduceAll
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx Cert.Common

namespace PreRange

section Concat
variable {α : Type} {A B T : Nat}

theorem cat_left (h : Shape.Concatenates [(⟨1, ![A]⟩ : Shape), ⟨1, ![B]⟩] ⟨1, ![T]⟩ 0)
    (x₁ : (⟨1, ![A]⟩ : Shape).Idx → α) (x₂ : (⟨1, ![B]⟩ : Shape).Idx → α) (e : Fin T) (he : e.val < A) :
    concatenate ⟨1, ![T]⟩ 0 [⟨⟨1, ![A]⟩, x₁⟩, ⟨⟨1, ![B]⟩, x₂⟩] h (ix1 e) = x₁ (ix1 ⟨e.val, he⟩) := by
  refine concatenate_pair_apply_left (0 : Fin 1) x₁ x₂ h (ix1 e) rfl (ix1 ⟨e.val, he⟩) ?_
  intro b
  match b with
  | ⟨0, _⟩ => rfl

theorem cat_right (h : Shape.Concatenates [(⟨1, ![A]⟩ : Shape), ⟨1, ![B]⟩] ⟨1, ![T]⟩ 0)
    (x₁ : (⟨1, ![A]⟩ : Shape).Idx → α) (x₂ : (⟨1, ![B]⟩ : Shape).Idx → α) (e : Fin T) (he : A ≤ e.val) (hB : e.val - A < B) :
    concatenate ⟨1, ![T]⟩ 0 [⟨⟨1, ![A]⟩, x₁⟩, ⟨⟨1, ![B]⟩, x₂⟩] h (ix1 e) = x₂ (ix1 ⟨e.val - A, hB⟩) := by
  refine concatenate_pair_apply_right (0 : Fin 1) x₁ x₂ h (ix1 e) rfl rfl (ix1 ⟨e.val - A, hB⟩) ?_ ?_
  · intro b hb
    match b with
    | ⟨0, _⟩ => exact absurd rfl hb
  · show e.val - A + A = e.val
    omega

end Concat

theorem row0_apply {α : Type} (x : (⟨2, ![2, 800000]⟩ : Shape).Idx → α)
    (hs : (⟨2, ![2, 800000]⟩ : Shape).Slices ![0, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![0, 0] x hs) hc (ix1 e) = x (ix2 (0 : Fin 2) e) := by
  rw [shapeCast_apply _ hc (ix1 e) (ix2 (0 : Fin 1) e)
    (by rewrite [Shape.rowMajor_val_two, Shape.rowMajor_val_one]; show 0 * 800000 + e.val = e.val; omega)]
  exact extractStridedSlice_apply ![0, 0] x hs (ix2 (0 : Fin 1) e) (ix2 (0 : Fin 2) e) (fun a => match a with
    | ⟨0, _⟩ => by show (0 : ℕ) = 0 + 0; omega
    | ⟨1, _⟩ => by show e.val = 0 + e.val; omega)

theorem edge_src_range (x0 : FVec Ideal Cert.Pre_finite_inputs.S50000x96 .f32) (x1 : FVec Ideal Cert.Pre_finite_inputs.S800000x1 .f32)
    (x2 : FVec Ideal Cert.Pre_finite_inputs.S96x96 .f32) (x3 : FVec Ideal Cert.Pre_finite_inputs.S96 .f32)
    (x4 : FVec Ideal Cert.Pre_finite_inputs.S96x96 .f32) (x5 : FVec Ideal Cert.Pre_finite_inputs.S96 .f32)
    (x6 : FVec Ideal Cert.Pre_finite_inputs.S96x96 .f32) (x7 : FVec Ideal Cert.Pre_finite_inputs.S96 .f32)
    (x8 : FVec Ideal Cert.Pre_finite_inputs.S96x10 .f32) (x9 : FVec Ideal Cert.Pre_finite_inputs.S10 .f32)
    (x10 : IVec Cert.Pre_finite_inputs.S2x800000 32) (x11 : IVec Cert.Pre_finite_inputs.S50000 32)
    (hpre : Cert.Pre_finite_inputs.fn (F := Ideal) x0 x1 x2 x3 x4 x5 x6 x7 x8 x9 x10 x11 = fun _ => 1#1) (e : Fin 800000) :
    0 ≤ (x10 (ix2 (0 : Fin 2) e)).toInt ∧ (x10 (ix2 (0 : Fin 2) e)).toInt < 50000 := by
  have h := congrFun hpre ix0
  dsimp only [Cert.Pre_finite_inputs.fn, Cert.Pre_finite_inputs.fn_part1, Cert.Pre_finite_inputs.fn_part2,
    Cert.Pre_finite_inputs.fn_part3] at h
  obtain ⟨h', hlt⟩ := IntOp.andi_eq_one.1 h
  obtain ⟨-, hge⟩ := IntOp.andi_eq_one.1 h'
  have hge' := Host.reduce_andi_eq_one _ _ _ _ _ hge (ix1 e) (funext fun d => d.elim0)
  have hlt' := Host.reduce_andi_eq_one _ _ _ _ _ hlt (ix1 e) (funext fun d => d.elim0)
  clear h h' hge hlt hpre
  have a := IntOp.cmpi_sge.1 hge'
  have b := IntOp.cmpi_slt.1 hlt'
  rw [row0_apply] at a b
  have c0 : (broadcastInDim Cert.Pre_finite_inputs.S800000 ![] Cert.Pre_finite_inputs.Facts.bcast_S_S800000 (constantI Cert.Pre_finite_inputs.S_ 32 0#32) (ix1 e)).toInt = 0 := rfl
  have c1 : (broadcastInDim Cert.Pre_finite_inputs.S800000 ![] Cert.Pre_finite_inputs.Facts.bcast_S_S800000 (constantI Cert.Pre_finite_inputs.S_ 32 50000#32) (ix1 e)).toInt = 50000 := by
    show (50000#32 : BitVec 32).toInt = 50000
    decide
  rw [c0] at a
  rw [c1] at b
  exact ⟨a, b⟩

theorem src_lo (x10 : (⟨S2x800000, .i32⟩ : BufTy).Contents (Elt Ideal)) (e : Fin 850000) (he : e.val < 800000) :
    val_main_v7 (F := Ideal) x10 (ix1 e) = x10 (ix2 (0 : Fin 2) (⟨e.val, he⟩ : Fin 800000)) := by
  unfold val_main_v7
  refine (cat_left concatenates_S800000_S50000_S850000_d0 (val_main_v2 (F := Ideal) x10) (val_main_v6 (F := Ideal)) e he).trans ?_
  unfold val_main_v2 val_main_v1
  exact row0_apply x10 slices_S2x800000_S1x800000_0_0 shapeCasts_S1x800000_S800000 ⟨e.val, he⟩

theorem src_hi (x10 : (⟨S2x800000, .i32⟩ : BufTy).Contents (Elt Ideal)) (e : Fin 850000) (he : 800000 ≤ e.val)
    (hB : e.val - 800000 < 50000) :
    val_main_v7 (F := Ideal) x10 (ix1 e) = BitVec.ofNat 32 (e.val - 800000) := by
  unfold val_main_v7
  exact cat_right concatenates_S800000_S50000_S850000_d0 (val_main_v2 (F := Ideal) x10) (val_main_v6 (F := Ideal)) e he hB

end PreRange

open PreRange

theorem src_range (x0 : FVec Ideal Cert.Pre_finite_inputs.S50000x96 .f32) (x1 : FVec Ideal Cert.Pre_finite_inputs.S800000x1 .f32)
    (x2 : FVec Ideal Cert.Pre_finite_inputs.S96x96 .f32) (x3 : FVec Ideal Cert.Pre_finite_inputs.S96 .f32)
    (x4 : FVec Ideal Cert.Pre_finite_inputs.S96x96 .f32) (x5 : FVec Ideal Cert.Pre_finite_inputs.S96 .f32)
    (x6 : FVec Ideal Cert.Pre_finite_inputs.S96x96 .f32) (x7 : FVec Ideal Cert.Pre_finite_inputs.S96 .f32)
    (x8 : FVec Ideal Cert.Pre_finite_inputs.S96x10 .f32) (x9 : FVec Ideal Cert.Pre_finite_inputs.S10 .f32)
    (x10 : IVec Cert.Pre_finite_inputs.S2x800000 32) (x11 : IVec Cert.Pre_finite_inputs.S50000 32)
    (hpre : Cert.Pre_finite_inputs.fn (F := Ideal) x0 x1 x2 x3 x4 x5 x6 x7 x8 x9 x10 x11 = fun _ => 1#1) :
    ∀ e : Fin 850000, 0 ≤ (val_main_v7 (F := Ideal) x10 (ix1 e)).toInt ∧ (val_main_v7 (F := Ideal) x10 (ix1 e)).toInt < 50000 := by
  intro e
  by_cases he : e.val < 800000
  · rw [src_lo x10 e he]
    exact edge_src_range x0 x1 x2 x3 x4 x5 x6 x7 x8 x9 x10 x11 hpre ⟨e.val, he⟩
  · have hge : 800000 ≤ e.val := Nat.le_of_not_lt he
    have hB : e.val - 800000 < 50000 := by have := e.isLt; omega
    rw [src_hi x10 e hge hB, StableHlo.Predicate.toInt_ofNat_small _ (by omega)]
    omega

end Cert.ReferenceIdeal.RefValue

end
-- ==== Proof.lean ====
/- Three graph-convolution layers, mean pooling and a linear head, computed two ways; on arrays padded to 50176 rows and
   851968 edge slots the kernel's masked block sums are the reference's scatter-add, provided every source index names a node. -/
import proofs.«425610_j63256278335719_1_alg».proof.Defs
import proofs.«425610_j63256278335719_1_alg».proof.Proof.Gen.Kernel
import proofs.«425610_j63256278335719_1_alg».proof.Proof.Gen.Kernel.Skeleton
import proofs.«425610_j63256278335719_1_alg».proof.Proof.Gen.Kernel.Launch
import proofs.«425610_j63256278335719_1_alg».proof.Proof.Gen.Kernel.Regions
import proofs.«425610_j63256278335719_1_alg».proof.Proof.Gen.Kernel.Points
import proofs.«425610_j63256278335719_1_alg».proof.Proof.Gen.KernelIdeal
import proofs.«425610_j63256278335719_1_alg».proof.Proof.Gen.KernelIdeal.Skeleton
import proofs.«425610_j63256278335719_1_alg».proof.Proof.Gen.KernelIdeal.Launch
import proofs.«425610_j63256278335719_1_alg».proof.Proof.Gen.KernelIdeal.Regions
import proofs.«425610_j63256278335719_1_alg».proof.Proof.Gen.KernelIdeal.Points
import proofs.«425610_j63256278335719_1_alg».proof.Proof.Gen.ReferenceIdeal
import proofs.«425610_j63256278335719_1_alg».proof.Proof.Gen.Pre_finite_inputs
import proofs.«425610_j63256278335719_1_alg».proof.Proof.K.Run
import proofs.«425610_j63256278335719_1_alg».proof.Proof.KI.Run
import proofs.«425610_j63256278335719_1_alg».proof.Proof.Val.KernelValue
import proofs.«425610_j63256278335719_1_alg».proof.Proof.Ref.PreRange
import proofs.«425610_j63256278335719_1_alg».proof.Proof.Ref.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.ReferenceIdeal.Read.val_main_v157 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Val.kernel_value m ρ c
        (Cert.ReferenceIdeal.RefValue.src_range _ _ _ _ _ _ _ _ _ _ _ _ (hpre c))), (h c).2⟩)
      (Cert.KernelIdeal.Hand.run_result m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7, h8, h9, h10, h11⟩ := hagree c
    rw [(h c).1, Cert.ReferenceIdeal.Read.val_main_v157_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
